-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S8192x4096 .f32) (main_arg3 : IVec S8192 32) (main_arg4 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S2x4096 : Shape := ⟨2, ![2, 4096]⟩
abbrev S1024x512 : Shape := ⟨2, ![1024, 512]⟩
abbrev S1024x2 : Shape := ⟨2, ![1024, 2]⟩
abbrev S2x512 : Shape := ⟨2, ![2, 512]⟩
abbrev S1024x1 : Shape := ⟨2, ![1024, 1]⟩
abbrev S512 : Shape := ⟨1, ![512]⟩
abbrev S1x512 : Shape := ⟨2, ![1, 512]⟩
abbrev S1 : Shape := ⟨1, ![1]⟩
abbrev S2 : Shape := ⟨1, ![2]⟩
abbrev S2x1 : Shape := ⟨2, ![2, 1]⟩
abbrev S1x2 : Shape := ⟨2, ![1, 2]⟩
abbrev S128x4096 : Shape := ⟨2, ![128, 4096]⟩
abbrev S128x2 : Shape := ⟨2, ![128, 2]⟩
abbrev S128x1 : Shape := ⟨2, ![128, 1]⟩
abbrev S1x4096 : Shape := ⟨2, ![1, 4096]⟩
abbrev S128 : Shape := ⟨1, ![128]⟩
abbrev S1x1 : Shape := ⟨2, ![1, 1]⟩

abbrev nBuf : Space → Nat
  | .hbm => 56
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S8192, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x2, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x4096, .f32⟩
  | .hbm, ⟨29, _⟩ => ⟨S2x4096, .f32⟩
  | .hbm, ⟨30, _⟩ => ⟨S1, .f32⟩
  | .hbm, ⟨31, _⟩ => ⟨S1, .f32⟩
  | .hbm, ⟨32, _⟩ => ⟨S2, .f32⟩
  | .hbm, ⟨33, _⟩ => ⟨S2x1, .f32⟩
  | .hbm, ⟨34, _⟩ => ⟨S2x4096, .f32⟩
  | .hbm, ⟨35, _⟩ => ⟨S2x4096, .f32⟩
  | .hbm, ⟨36, _⟩ => ⟨S2x4096, .f32⟩
  | .hbm, ⟨37, _⟩ => ⟨S2x4096, .f32⟩
  | .hbm, ⟨38, _⟩ => ⟨S1x2, .f32⟩
  | .hbm, ⟨39, _⟩ => ⟨S1x1, .f32⟩
  | .hbm, ⟨40, _⟩ => ⟨S_, .f32⟩
  | .hbm, ⟨41, _⟩ => ⟨S1x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S2, .f32⟩
  | .hbm, ⟨48, _⟩ => ⟨S1, .f32⟩
  | .hbm, ⟨49, _⟩ => ⟨S1, .f32⟩
  | .hbm, ⟨50, _⟩ => ⟨S2, .f32⟩
  | .hbm, ⟨51, _⟩ => ⟨S2, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x2, .f32⟩
  | .local _ .vmem, ⟨5, _⟩ => ⟨S1024x2, .f32⟩
  | .local _ .vmem, ⟨6, _⟩ => ⟨S2x512, .f32⟩
  | .local _ .vmem, ⟨7, _⟩ => ⟨S2x512, .f32⟩
  | .local _ .vmem, ⟨8, _⟩ => ⟨S2x512, .f32⟩
  | .local _ .vmem, ⟨9, _⟩ => ⟨S2x512, .f32⟩
  | .local _ .vmem, ⟨10, _⟩ => ⟨S2x512, .f32⟩
  | .local _ .vmem, ⟨11, _⟩ => ⟨S2x512, .f32⟩
  | .local _ .vmem, ⟨12, _⟩ => ⟨S128x4096, .f32⟩
  | .local _ .vmem, ⟨13, _⟩ => ⟨S128x4096, .f32⟩
  | .local _ .vmem, ⟨14, _⟩ => ⟨S128x2, .f32⟩
  | .local _ .vmem, ⟨15, _⟩ => ⟨S128x2, .f32⟩
  | .local _ .vmem, ⟨16, _⟩ => ⟨S2x4096, .f32⟩
  | .local _ .vmem, ⟨17, _⟩ => ⟨S2x4096, .f32⟩
  | .local _ .vmem, ⟨18, _⟩ => ⟨S1x2, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192_S_d0 : S8192.ReducesTo [0] S_
  h_S_ : 0 < S_.numel
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S1024x2_S1024x1_0_0 : ∀ a, (![0, 0] : Fin 2 → Nat) a + S1024x1.size a ≤ S1024x2.size a
  h_S1024x1 : 0 < S1024x1.numel
  shapeCasts_S1024x1_S1024x1 : S1024x1.ShapeCasts S1024x1
  inb_S1024x2_S1024x1_0_1 : ∀ a, (![0, 1] : Fin 2 → Nat) a + S1024x1.size a ≤ S1024x2.size a
  inb_S1024x512_S1024x512_0_0 : ∀ a, (![0, 0] : Fin 2 → Nat) a + S1024x512.size a ≤ S1024x512.size a
  h_S1024x512 : 0 < S1024x512.numel
  broadcasts_S1024x1_S1024x512 : S1024x1.Broadcasts S1024x512
  reduces_S1024x512_S512 : S1024x512.Reduces [0] S512
  shapeCasts_S512_S1x512 : S512.ShapeCasts S1x512
  inb_S2x512_S1x512_0_0 : ∀ a, (![0, 0] : Fin 2 → Nat) a + S1x512.size a ≤ S2x512.size a
  h_S1x512 : 0 < S1x512.numel
  shapeCasts_S1x512_S1x512 : S1x512.ShapeCasts S1x512
  inb_S2x512_S1x512_1_0 : ∀ a, (![1, 0] : Fin 2 → Nat) a + S1x512.size a ≤ S2x512.size a
  bcast_S_S1 : S_.BroadcastsInDim S1 (![] : Fin 0 → Fin S1.rank)
  concatenates_S1_S1_S2_d0 : Shape.Concatenates [S1, S1] S2 0
  bcast_S2_S2x1_0 : S2.BroadcastsInDim S2x1 (![0] : Fin 1 → Fin S2x1.rank)
  bcast_S2x1_S2x4096_0_1 : S2x1.BroadcastsInDim S2x4096 (![0, 1] : Fin 2 → Fin S2x4096.rank)
  inb_S1x2_S1x2_0_0 : ∀ a, (![0, 0] : Fin 2 → Nat) a + S1x2.size a ≤ S1x2.size a
  h_S1x2 : 0 < S1x2.numel
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  inb_S2x4096_S1x4096_0_0 : ∀ a, (![0, 0] : Fin 2 → Nat) a + S1x4096.size a ≤ S2x4096.size a
  h_S1x4096 : 0 < S1x4096.numel
  shapeCasts_S1x4096_S1x4096 : S1x4096.ShapeCasts S1x4096
  inb_S2x4096_S1x4096_1_0 : ∀ a, (![1, 0] : Fin 2 → Nat) a + S1x4096.size a ≤ S2x4096.size a
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S8192x2.size a
  hwx0_2 : ∀ i : grid0.Coords, EltTy.bits .f32 = 32 ∨ (Rect.block (s := S8192x2) S1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x4096.size a
  hwx0_3 : ∀ i : grid0.Coords, EltTy.bits .f32 = 32 ∨ (Rect.block (s := S2x4096) S2x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512.size a ≤ S2x4096.size a
  hwx0_4 : ∀ i : grid0.Coords, EltTy.bits .f32 = 32 ∨ (Rect.block (s := S2x4096) S2x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S8192x2.size a
  hwx1_1 : ∀ i : grid1.Coords, EltTy.bits .f32 = 32 ∨ (Rect.block (s := S8192x2) S128x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x4096.size a ≤ S2x4096.size a
  hwx1_2 : ∀ i : grid1.Coords, EltTy.bits .f32 = 32 ∨ (Rect.block (s := S2x4096) S2x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x4096.size a ≤ S2x4096.size a
  hwx1_3 : ∀ i : grid1.Coords, EltTy.bits .f32 = 32 ∨ (Rect.block (s := S2x4096) S2x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)

variable [Facts₀]

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S2x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S2x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x2.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S4096 : Shape := ⟨1, ![4096]⟩
abbrev S1x4096 : Shape := ⟨2, ![1, 4096]⟩
abbrev S1 : Shape := ⟨1, ![1]⟩
abbrev S2 : Shape := ⟨1, ![2]⟩
abbrev S2x4096 : Shape := ⟨2, ![2, 4096]⟩

abbrev nBuf : Space → Nat
  | .hbm => 122
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S8192, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S1x4096, .f32⟩
  | .hbm, ⟨44, _⟩ => ⟨S8192x4096, .f32⟩
  | .hbm, ⟨45, _⟩ => ⟨S8192x4096, .f32⟩
  | .hbm, ⟨46, _⟩ => ⟨S1x4096, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192x1, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S8192x1, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S1x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S_, .f32⟩
  | .hbm, ⟨87, _⟩ => ⟨S8192x4096, .f32⟩
  | .hbm, ⟨88, _⟩ => ⟨S8192x4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S1x4096, .f32⟩
  | .hbm, ⟨94, _⟩ => ⟨S8192x4096, .f32⟩
  | .hbm, ⟨95, _⟩ => ⟨S8192x4096, .f32⟩
  | .hbm, ⟨96, _⟩ => ⟨S1x4096, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S1, .f32⟩
  | .hbm, ⟨106, _⟩ => ⟨S1, .f32⟩
  | .hbm, ⟨107, _⟩ => ⟨S2, .f32⟩
  | .hbm, ⟨108, _⟩ => ⟨S1x4096, .f32⟩
  | .hbm, ⟨109, _⟩ => ⟨S1x4096, .f32⟩
  | .hbm, ⟨110, _⟩ => ⟨S2x4096, .f32⟩
  | .hbm, ⟨111, _⟩ => ⟨S1x4096, .f32⟩
  | .hbm, ⟨112, _⟩ => ⟨S1x4096, .f32⟩
  | .hbm, ⟨113, _⟩ => ⟨S2x4096, .f32⟩
  | .hbm, ⟨114, _⟩ => ⟨S1, .f32⟩
  | .hbm, ⟨115, _⟩ => ⟨S1, .f32⟩
  | .hbm, ⟨116, _⟩ => ⟨S2, .f32⟩
  | .hbm, ⟨117, _⟩ => ⟨S2, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192_S_d0 : S8192.ReducesTo [0] S_
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  reducesTo_S8192x4096_S4096_d0 : S8192x4096.ReducesTo [0] S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  bcast_S_S1 : S_.BroadcastsInDim S1 (![] : Fin 0 → Fin S1.rank)
  concatenates_S1_S1_S2_d0 : Shape.Concatenates [S1, S1] S2 0
  concatenates_S1x4096_S1x4096_S2x4096_d0 : Shape.Concatenates [S1x4096, S1x4096] S2x4096 0
  reducesTo_S2_S_d0 : S2.ReducesTo [0] S_

variable [Facts₀]

class Facts : Prop extends Facts₀ where

variable [Facts]
-- ==== Proof.K.R0Frame.lean ====
import proofs.«156448_j71244917506189_1_alg».proof.Proof.Gen.Kernel.Launch
import proofs.«156448_j71244917506189_1_alg».proof.Proof.Gen.Kernel.Skeleton
import proofs.«156448_j71244917506189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

abbrev VO0_3 : View sig .tc .vmem S2x512 .f32 := (Memref.whole cc0_stg3_0 : Memref sig .tc .vmem S2x512 .f32).view
abbrev VO0_4 : View sig .tc .vmem S2x512 .f32 := (Memref.whole cc0_stg4_0 : Memref sig .tc .vmem S2x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .f32 := win0_4.stage (cfg0.slots t 4)
abbrev hs0_4 (t : Fin cfg0.N) : (ms0_4 t).IsWhole := hstage0_4 ((cfg0.slots t 4).cast nbuf0_4)
abbrev scM0_0 : Memref sig .tc .vmem S2x512 .f32 := Memref.whole cc0_scratch0
abbrev scM0_1 : Memref sig .tc .vmem S2x512 .f32 := Memref.whole cc0_scratch1
abbrev VS0_0 : View sig .tc .vmem S2x512 .f32 := scM0_0.view
abbrev VS0_1 : View sig .tc .vmem S2x512 .f32 := scM0_1.view

def restS0 : sProp 𝕄 :=
  bigSepL [cc1_stg0_0, cc1_stg0_1, cc1_stg1_0, cc1_stg1_1, cc1_stg2_0, cc1_stg3_0, cc1_stg4_0] fun b =>
    iprop(∃ f : Buf (Elt F) ((c : Thread nD τ).loc b), ((c : Thread nD τ).loc b) ↦{fullShare} f)

theorem PhiA0_eq :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

-- Writes that cover a buffer leave it holding what they read back, whatever it held before.
theorem owns_of_cover {sp : Space} {s : Shape} {e : EltTy} {κ' : Kind} {sp' : Space} (v' : View sig κ' sp' s e) {M : Memref sig .tc sp s e}
    {L : List (View.Piece (Elt F) s e)} (h : ∀ y, ∃ p ∈ L, y ∈ p.1.set) :
    (iprop(∃ g, M.view.loc (c : Thread nD τ) ↦[M.view.set]{fullShare} M.view.writes (Elt F) g L) : sProp 𝕄)
      ⊢ owns (c : Thread nD τ) M fullShare (v'.read (Elt F) (v'.writes (Elt F) v'.junk L)) := by
  iintro ⟨%g, H⟩; unfold owns; iexists M.view.writes (Elt F) g L; isplitr
  · ipureintro; exact View.read_writes_of_cover _ _ _ _ _ h
  · iexact H

section Body

variable (i : grid0.Coords) (arg2 : Memref sig .tc .vmem S1024x512 .f32) (harg2 : arg2.IsWhole) (arg3 : Memref sig .tc .vmem S1024x512 .f32) (harg3 : arg3.IsWhole) (arg4 : Memref sig .tc .vmem S1024x2 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (arg8 : Memref sig .tc .vmem S2x512 .f32) (harg8 : arg8.IsWhole)

-- The states a 2 x 512 buffer is held in: at given contents, at any contents, at writes over any filling.
abbrev atC (x : Vec F S2x512 .f32) (m : Memref sig .tc .vmem S2x512 .f32) : sProp 𝕄 := owns (c : Thread nD τ) m fullShare x
abbrev anyC (m : Memref sig .tc .vmem S2x512 .f32) : sProp 𝕄 := iprop(∃ d, owns (c : Thread nD τ) m fullShare d)
abbrev wrC (L : List (View.Piece (Elt F) S2x512 .f32)) (m : Memref sig .tc .vmem S2x512 .f32) : sProp 𝕄 :=
  iprop(∃ f, m.view.loc (c : Thread nD τ) ↦[m.view.set]{fullShare} m.view.writes (Elt F) f L)

-- A run of the body: handed the three inputs at `x0 x1 x2` and the four 2 x 512 buffers as `P` says, it gives the inputs back untouched and the four as `Q` says.
abbrev Runs (x0 : Vec F S1024x512 .f32) (x1 : Vec F S1024x512 .f32) (x2 : Vec F S1024x2 .f32) (P5 P6 P7 P8 Q5 Q6 Q7 Q8 : Memref sig .tc .vmem S2x512 .f32 → sProp 𝕄) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 arg5 ∗ P6 arg6 ∗ P7 arg7 ∗ P8 arg8
        ∗ (iprop(owns (c : Thread nD τ) arg2 fullShare x0 ∗ owns (c : Thread nD τ) arg3 fullShare x1 ∗ owns (c : Thread nD τ) arg4 fullShare x2 ∗ Q5 arg5 ∗ Q6 arg6 ∗ Q7 arg7 ∗ Q8 arg8) -∗ K ⟨⟩))
      ⊢ wp frame (wpE (defs₀ (F := F)) Variants.none c none) E (cc0__kernelA_body i arg2 harg2 arg3 harg3 arg4 harg4 arg5 harg5 arg6 harg6 arg7 harg7 arg8 harg8) K

section A

variable (hc0 : cond0_0 i) (hc1 : ¬cond0_1 i) (x0 : Vec F S1024x512 .f32) (x1 : Vec F S1024x512 .f32) (x2 : Vec F S1024x2 .f32)

set_option maxHeartbeats 1000000 in
noncomputable def kernelRun0_A :
    Σ' (L3 L4 LS0 : List (View.Piece (Elt F) S2x512 .f32)), { LS1 : List (View.Piece (Elt F) S2x512 .f32) //
      ∀ xi3 xi4, Runs c i arg2 harg2 arg3 harg3 arg4 harg4 arg5 harg5 arg6 harg6 arg7 harg7 arg8 harg8 x0 x1 x2 (atC c xi3) (atC c xi4) (anyC c) (anyC c) (atC c xi3) (atC c xi4) (wrC c LS0) (wrC c LS1) } := by
  refine ⟨[], [], ?_, ?_, fun xi3 xi4 E K => ?run⟩
  case run =>
    simp only [cc0__kernelA_body_eq_skeleton]; unfold cc0__kernelA_body_skel
    simp only [k0_part1_eq_skeleton]
    dsimp only [atC, anyC, wrC]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    sl_close

end A

section B

variable (hc0 : ¬cond0_0 i) (hc1 : ¬cond0_1 i) (x0 : Vec F S1024x512 .f32) (x1 : Vec F S1024x512 .f32) (x2 : Vec F S1024x2 .f32) (xs0 : Vec F S2x512 .f32) (xs1 : Vec F S2x512 .f32)

set_option maxHeartbeats 1000000 in
noncomputable def kernelRun0_B :
    Σ' (L3 L4 LS0 : List (View.Piece (Elt F) S2x512 .f32)), { LS1 : List (View.Piece (Elt F) S2x512 .f32) //
      ∀ xi3 xi4, Runs c i arg2 harg2 arg3 harg3 arg4 harg4 arg5 harg5 arg6 harg6 arg7 harg7 arg8 harg8 x0 x1 x2 (atC c xi3) (atC c xi4) (atC c xs0) (atC c xs1) (atC c xi3) (atC c xi4) (wrC c LS0) (wrC c LS1) } := by
  refine ⟨[], [], ?_, ?_, fun xi3 xi4 E K => ?run⟩
  case run =>
    simp only [cc0__kernelA_body_eq_skeleton]; unfold cc0__kernelA_body_skel
    simp only [k0_part1_eq_skeleton]
    dsimp only [atC, anyC, wrC]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    sl_close

end B

section C

variable (hc0 : ¬cond0_0 i) (hc1 : cond0_1 i) (x0 : Vec F S1024x512 .f32) (x1 : Vec F S1024x512 .f32) (x2 : Vec F S1024x2 .f32) (xs0 : Vec F S2x512 .f32) (xs1 : Vec F S2x512 .f32)

set_option maxHeartbeats 1000000 in
noncomputable def kernelRun0_C :
    Σ' (L3 L4 LS0 : List (View.Piece (Elt F) S2x512 .f32)), { LS1 : List (View.Piece (Elt F) S2x512 .f32) //
      Runs c i arg2 harg2 arg3 harg3 arg4 harg4 arg5 harg5 arg6 harg6 arg7 harg7 arg8 harg8 x0 x1 x2 (anyC c) (anyC c) (atC c xs0) (atC c xs1) (wrC c L3) (wrC c L4) (wrC c LS0) (wrC c LS1) } := by
  refine ⟨?_, ?_, ?_, ?_, fun E K => ?run⟩
  case run =>
    simp only [cc0__kernelA_body_eq_skeleton]; unfold cc0__kernelA_body_skel
    simp only [k0_part1_eq_skeleton]
    dsimp only [atC, anyC, wrC]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    sl_close

end C

end Body

-- Each case's run at a point's memrefs and input blocks; its pieces for the two accumulators (and, where it copies out, the two output blocks) cover them.
abbrev run0_A (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)
abbrev run0_B (t : Fin cfg0.N) (h0 : ¬t.val % 8 = 0) (h1 : ¬t.val % 8 = 7) (xs0 xs1 : Vec F S2x512 .f32) :=
  kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1
abbrev run0_C (t : Fin cfg0.N) (h0 : ¬t.val % 8 = 0) (h1 : t.val % 8 = 7) (xs0 xs1 : Vec F S2x512 .f32) :=
  kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1

theorem cover0_A (t : Fin cfg0.N) (h0 : t.val % 8 = 0) (h1 : ¬t.val % 8 = 7) :
    (∀ y, ∃ pc ∈ (run0_A V c t h0 h1).2.2.1, y ∈ pc.1.set) ∧ ∀ y, ∃ pc ∈ (run0_A V c t h0 h1).2.2.2.1, y ∈ pc.1.set :=
  ⟨View.cover_of_tiledL (s := S2x512) _ S1x512.size (by sl_kernel_rfl), View.cover_of_tiledL (s := S2x512) _ S1x512.size (by sl_kernel_rfl)⟩
theorem cover0_B (t : Fin cfg0.N) (h0 : ¬t.val % 8 = 0) (h1 : ¬t.val % 8 = 7) (xs0 xs1 : Vec F S2x512 .f32) :
    (∀ y, ∃ pc ∈ (run0_B V c t h0 h1 xs0 xs1).2.2.1, y ∈ pc.1.set) ∧ ∀ y, ∃ pc ∈ (run0_B V c t h0 h1 xs0 xs1).2.2.2.1, y ∈ pc.1.set :=
  ⟨View.cover_of_tiledL (s := S2x512) _ S1x512.size (by sl_kernel_rfl), View.cover_of_tiledL (s := S2x512) _ S1x512.size (by sl_kernel_rfl)⟩
theorem cover0_C (t : Fin cfg0.N) (h0 : ¬t.val % 8 = 0) (h1 : t.val % 8 = 7) (xs0 xs1 : Vec F S2x512 .f32) :
    (∀ y, ∃ pc ∈ (run0_C V c t h0 h1 xs0 xs1).1, y ∈ pc.1.set) ∧ (∀ y, ∃ pc ∈ (run0_C V c t h0 h1 xs0 xs1).2.1, y ∈ pc.1.set)
      ∧ (∀ y, ∃ pc ∈ (run0_C V c t h0 h1 xs0 xs1).2.2.1, y ∈ pc.1.set) ∧ ∀ y, ∃ pc ∈ (run0_C V c t h0 h1 xs0 xs1).2.2.2.1, y ∈ pc.1.set :=
  ⟨View.cover_of_tiledL (s := S2x512) _ S2x512.size (by sl_kernel_rfl), View.cover_of_tiledL (s := S2x512) _ S2x512.size (by sl_kernel_rfl), View.cover_of_tiledL (s := S2x512) _ S1x512.size (by sl_kernel_rfl), View.cover_of_tiledL (s := S2x512) _ S1x512.size (by sl_kernel_rfl)⟩

-- The four buffers after a point, case by case: the two output blocks (read only where the case stores into them) and the two accumulators.
abbrev pt0_A (t : Fin cfg0.N) (h0 : t.val % 8 = 0) (h1 : ¬t.val % 8 = 7) : Vec F S2x512 .f32 × Vec F S2x512 .f32 × Vec F S2x512 .f32 × Vec F S2x512 .f32 :=
  (VO0_3.read (Elt F) VO0_3.junk, VO0_4.read (Elt F) VO0_4.junk,
   VS0_0.read (Elt F) (VS0_0.writes (Elt F) VS0_0.junk (run0_A V c t h0 h1).2.2.1), VS0_1.read (Elt F) (VS0_1.writes (Elt F) VS0_1.junk (run0_A V c t h0 h1).2.2.2.1))
abbrev pt0_B (t : Fin cfg0.N) (h0 : ¬t.val % 8 = 0) (h1 : ¬t.val % 8 = 7) (xs0 xs1 : Vec F S2x512 .f32) : Vec F S2x512 .f32 × Vec F S2x512 .f32 × Vec F S2x512 .f32 × Vec F S2x512 .f32 :=
  (VO0_3.read (Elt F) VO0_3.junk, VO0_4.read (Elt F) VO0_4.junk,
   VS0_0.read (Elt F) (VS0_0.writes (Elt F) VS0_0.junk (run0_B V c t h0 h1 xs0 xs1).2.2.1), VS0_1.read (Elt F) (VS0_1.writes (Elt F) VS0_1.junk (run0_B V c t h0 h1 xs0 xs1).2.2.2.1))
abbrev pt0_C (t : Fin cfg0.N) (h0 : ¬t.val % 8 = 0) (h1 : t.val % 8 = 7) (xs0 xs1 : Vec F S2x512 .f32) : Vec F S2x512 .f32 × Vec F S2x512 .f32 × Vec F S2x512 .f32 × Vec F S2x512 .f32 :=
  (VO0_3.read (Elt F) (VO0_3.writes (Elt F) VO0_3.junk (run0_C V c t h0 h1 xs0 xs1).1), VO0_4.read (Elt F) (VO0_4.writes (Elt F) VO0_4.junk (run0_C V c t h0 h1 xs0 xs1).2.1),
   VS0_0.read (Elt F) (VS0_0.writes (Elt F) VS0_0.junk (run0_C V c t h0 h1 xs0 xs1).2.2.1), VS0_1.read (Elt F) (VS0_1.writes (Elt F) VS0_1.junk (run0_C V c t h0 h1 xs0 xs1).2.2.2.1))

def outsAt0 : (n : ℕ) → n < cfg0.N → Vec F S2x512 .f32 × Vec F S2x512 .f32 × Vec F S2x512 .f32 × Vec F S2x512 .f32
  | 0, hn => pt0_A V c ⟨0, hn⟩ (Nat.zero_mod _) (show ¬(0 : ℕ) % 8 = 7 by decide)
  | n + 1, hn =>
    if h0 : (n + 1) % 8 = 0 then
      if h1 : (n + 1) % 8 = 7 then
        False.elim (by omega)
      else
        pt0_A V c ⟨n + 1, hn⟩ h0 h1
    else
      if h1 : (n + 1) % 8 = 7 then
        pt0_C V c ⟨n + 1, hn⟩ h0 h1 (outsAt0 n (Nat.lt_of_succ_lt hn)).2.2.1 (outsAt0 n (Nat.lt_of_succ_lt hn)).2.2.2
      else
        pt0_B V c ⟨n + 1, hn⟩ h0 h1 (outsAt0 n (Nat.lt_of_succ_lt hn)).2.2.1 (outsAt0 n (Nat.lt_of_succ_lt hn)).2.2.2

theorem outsAt0_A (t : Fin cfg0.N) (h0 : t.val % 8 = 0) (h1 : ¬t.val % 8 = 7) :
    outsAt0 V c t.val t.isLt = pt0_A V c t h0 h1 := by
  obtain ⟨n, hn⟩ := t
  cases n with
  | zero => exact rfl
  | succ n => exact (dif_pos h0).trans ((dif_neg h1).trans rfl)

theorem outsAt0_B (t : Fin cfg0.N) (h0 : ¬t.val % 8 = 0) (h1 : ¬t.val % 8 = 7) :
    outsAt0 V c t.val t.isLt = pt0_B V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (t : Fin cfg0.N) (h0 : ¬t.val % 8 = 0) (h1 : t.val % 8 = 7) :
    outsAt0 V c t.val t.isLt = pt0_C V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

-- Before the first point the accumulators hold anything; afterwards what the point before left in them.
def PhiS0 : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (w : Fin cfg0.W) : (dat0 V c).A w = V c (Pipeline.arrRef spec0 w) := by
  dsimp only [dat0]

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = (outsAt0 V c t.val t.isLt).1 := by dsimp only [dat0]
theorem after0_4 (t : Fin cfg0.N) : (dat0 V c).after 4 t = (outsAt0 V c t.val t.isLt).2.1 := by dsimp only [dat0]

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl

theorem leaves0_live (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

theorem Phi0_succ (t : Fin cfg0.N) :
    (dat0 V c).Φ t.succ = iprop(iprop(owns (c : Thread nD τ) scM0_0 fullShare ((outsAt0 V c t.val t.isLt).2.2.1) ∗ owns (c : Thread nD τ) scM0_1 fullShare ((outsAt0 V c t.val t.isLt).2.2.2) ∗ restS0 (F := F) c) ∗ (∃ r, prngReg c r)) := rfl

theorem Phi0_pos (t : Fin cfg0.N) (hz : t.val ≠ 0) :
    (dat0 V c).Φ t.castSucc = iprop(iprop(owns (c : Thread nD τ) scM0_0 fullShare ((outsAt0 V c (t.val - 1) (by omega)).2.2.1) ∗ owns (c : Thread nD τ) scM0_1 fullShare ((outsAt0 V c (t.val - 1) (by omega)).2.2.2) ∗ restS0 (F := F) c) ∗ (∃ r, prngReg c r)) := by
  obtain ⟨n, hn⟩ := t
  cases n with
  | zero => exact absurd rfl hz
  | succ n => rfl

-- At every position the invariant entails its form before the first point: the accumulators' contents are forgotten.
theorem Phi0_forget (t : Fin (cfg0.N + 1)) :
    (dat0 V c).Φ t ⊢ iprop(iprop((∃ d, owns (c : Thread nD τ) scM0_0 fullShare d) ∗ (∃ d, owns (c : Thread nD τ) scM0_1 fullShare d) ∗ restS0 (F := F) c) ∗ (∃ r, prngReg c r)) := by
  obtain ⟨n, hn⟩ := t
  cases n with
  | zero => exact Entails.of_eq (PhiA0_eq c)
  | succ n =>
    show PhiS0 V c (n + 1) _ ⊢ _
    unfold PhiS0
    iintro ⟨⟨HS0, HS1, HR⟩, Hg⟩
    iframe
    isplitl [HS0]; · iexists _; iexact HS0
    iexists _; iexact HS1

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
-- Each case's run takes the point's resources and gives them back, every buffer it stored into at writes that cover it.
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, Phi0_succ,
    leaves0_live V c 0 t (liveAt0_0 t), leaves0_live V c 1 t (liveAt0_1 t), leaves0_live V c 2 t (liveAt0_2 t), after0_0, after0_1, after0_2]
  by_cases h0 : t.val % 8 = 0
  · have h1 : ¬t.val % 8 = 7 := by omega
    have hc1 : ¬cond0_1 (grid0.coords t) := fun h => h1 ((hcond0_1 t).mp h)
    rw [Dat.leavesExact_idle (dat0 V c) 3 t (idleAt0_3 t hc1) (noFlush0_3 t hc1),
      Dat.leavesExact_idle (dat0 V c) 4 t (idleAt0_4 t hc1) (noFlush0_4 t hc1), outsAt0_A V c t h0 h1]
    dsimp only [pt0_A]
    refine (sep_mono (Phi0_forget V c _) .rfl).trans ?_
    iintro ⟨⟨⟨HS0, HS1, HR⟩, Hg⟩, Ho, ⟨%d0, H0⟩, ⟨%d1, H1⟩, ⟨%d2, H2⟩, ⟨%d3, H3⟩, ⟨%d4, H4⟩⟩
    iapply ((run0_A V c t h0 h1).2.2.2.2 _ _ _ _)
    unfold atC anyC wrC
    iframe H0 H1 H2 H3 H4 HS0 HS1
    iintro ⟨H0, H1, H2, H3, H4, HS0, HS1⟩
    ihave HS0 := (owns_of_cover c VS0_0 (cover0_A V c t h0 h1).1) $$ HS0
    ihave HS1 := (owns_of_cover c VS0_1 (cover0_A V c t h0 h1).2) $$ HS1
    iframe
    isplitl [H3]; · iexists _; iexact H3
    iexists _; iexact H4
  · rw [Phi0_pos V c t fun hz => h0 (by rw [hz])]
    by_cases h1 : t.val % 8 = 7
    · have hc1 : cond0_1 (grid0.coords t) := (hcond0_1 t).mpr h1
      rw [leaves0_live V c 3 t (liveAt0_3 t hc1), leaves0_live V c 4 t (liveAt0_4 t hc1), after0_3, after0_4, outsAt0_C V c t h0 h1]
      dsimp only [pt0_C]
      iintro ⟨⟨⟨HS0, HS1, HR⟩, Hg⟩, Ho, ⟨%d0, H0⟩, ⟨%d1, H1⟩, ⟨%d2, H2⟩, H3, H4⟩
      iapply ((run0_C V c t h0 h1 _ _).2.2.2.2 _ _)
      unfold atC anyC wrC
      iframe H0 H1 H2 HS0 HS1
      isplitl [H3]
      · icases H3 with ⟨%d3, H3⟩; iexists _; iexact H3
      isplitl [H4]
      · icases H4 with ⟨%d4, H4⟩; iexists _; iexact H4
      iintro ⟨H0, H1, H2, H3, H4, HS0, HS1⟩
      ihave H3 := (owns_of_cover c VO0_3 (cover0_C V c t h0 h1 _ _).1) $$ H3
      ihave H4 := (owns_of_cover c VO0_4 (cover0_C V c t h0 h1 _ _).2.1) $$ H4
      ihave HS0 := (owns_of_cover c VS0_0 (cover0_C V c t h0 h1 _ _).2.2.1) $$ HS0
      ihave HS1 := (owns_of_cover c VS0_1 (cover0_C V c t h0 h1 _ _).2.2.2) $$ HS1
      iframe
    · have hc1 : ¬cond0_1 (grid0.coords t) := fun h => h1 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1), outsAt0_B V c t h0 h1]
      dsimp only [pt0_B]
      iintro ⟨⟨⟨HS0, HS1, HR⟩, Hg⟩, Ho, ⟨%d0, H0⟩, ⟨%d1, H1⟩, ⟨%d2, H2⟩, ⟨%d3, H3⟩, ⟨%d4, H4⟩⟩
      iapply ((run0_B V c t h0 h1 _ _).2.2.2.2 _ _ _ _)
      unfold atC wrC
      iframe H0 H1 H2 H3 H4 HS0 HS1
      iintro ⟨H0, H1, H2, H3, H4, HS0, HS1⟩
      ihave HS0 := (owns_of_cover c VS0_0 (cover0_B V c t h0 h1 _ _).1) $$ HS0
      ihave HS1 := (owns_of_cover c VS0_1 (cover0_B V c t h0 h1 _ _).2) $$ HS1
      iframe
      isplitl [H3]; · iexists _; iexact H3
      iexists _; iexact H4

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  (Phi0_forget V c _).trans (Entails.of_eq (PhiA0_eq c).symm)

end Cert.Kernel.Frame

end
-- ==== Proof.K.R1Frame.lean ====
import proofs.«156448_j71244917506189_1_alg».proof.Proof.Gen.Kernel.Launch
import proofs.«156448_j71244917506189_1_alg».proof.Proof.Gen.Kernel.Skeleton
import proofs.«156448_j71244917506189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

abbrev VO1_4 : View sig .tc .vmem S1x2 .f32 := (Memref.whole cc1_stg4_0 : Memref sig .tc .vmem S1x2 .f32).view
abbrev ms1_0 (t : Fin cfg1.N) : Memref sig .tc .vmem S128x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)

-- a whole buffer read as `x` has exactly one raw filling, so owning it at `x` is holding that filling
theorem owns_whole (c : Dev nD) {sp : Space} {s : Shape} {e : EltTy} {a : Memref sig .tc sp s e} (h : a.IsWhole) (x : s.Idx → Elt F e) :
    (owns (c : Thread nD τ) a fullShare x : sProp 𝕄) = (a.view.loc (c : Thread nD τ) ↦[a.view.set]{fullShare} h.unread x) := by
  unfold owns
  refine Entails.antisymm (?_ : (_ : sProp 𝕄) ⊢ _) (?_ : (_ : sProp 𝕄) ⊢ _)
  · iintro ⟨%f, %hf, H⟩; obtain rfl := h.eq_unread hf; iexact H
  · iintro H; iexists _; isplitr; · ipureintro; exact h.read_unread _
    iexact H

section
variable (c : Dev nD) (i : grid1.Coords) (arg1 : Memref sig .tc .vmem S128x4096 .f32) (harg1 : arg1.IsWhole) (arg2 : Memref sig .tc .vmem S128x2 .f32) (harg2 : arg2.IsWhole) (arg3 : Memref sig .tc .vmem S2x4096 .f32) (harg3 : arg3.IsWhole) (arg4 : Memref sig .tc .vmem S2x4096 .f32) (harg4 : arg4.IsWhole) (arg5 : Memref sig .tc .vmem S1x2 .f32) (harg5 : arg5.IsWhole)

section
variable (hc0 : cond1_0 i) (x0 : Vec F S128x4096 .f32) (x1 : Vec F S128x2 .f32) (x2 : Vec F S2x4096 .f32) (x3 : Vec F S2x4096 .f32)

set_option maxHeartbeats 1000000 in
include hc0 in
noncomputable def kernelRun1_A :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__kernelB_body i arg1 harg1 arg2 harg2 arg3 harg3 arg4 harg4 arg5 harg5) K } := by
  refine ⟨?_, fun E K => ?run⟩
  case run =>
    simp only [cc1__kernelB_body_eq_skeleton]; unfold cc1__kernelB_body_skel
    simp only [k1_part1_eq_skeleton]
    rw [owns_whole c harg1, owns_whole c harg2, owns_whole c harg3, owns_whole c harg4]; unfold owns
    iintro ⟨H0, H1, H2, H3, ⟨%d4, %f4, -, H4⟩, Hk⟩
    sl_exec (disch := first | exact hc0)
    sl_step
    iapply Hk
    iframe H0 H1 H2 H3
    iexists _; iexact H4

theorem cover1_A_4 (y : S1x2.Idx) :
    ∃ pc ∈ (kernelRun1_A c i arg1 harg1 arg2 harg2 arg3 harg3 arg4 harg4 arg5 harg5 hc0 x0 x1 x2 x3).1, y ∈ pc.1.set :=
  View.cover_of_tiledL (kernelRun1_A c i arg1 harg1 arg2 harg2 arg3 harg3 arg4 harg4 arg5 harg5 hc0 x0 x1 x2 x3).1 S1x2.size (by sl_kernel_rfl) y

def out1_A_4 : Vec F S1x2 .f32 :=
  VO1_4.read (Elt F) (VO1_4.writes (Elt F) VO1_4.junk (kernelRun1_A c i arg1 harg1 arg2 harg2 arg3 harg3 arg4 harg4 arg5 harg5 hc0 x0 x1 x2 x3).1)
end

section
variable (hc0 : ¬cond1_0 i) (x0 : Vec F S128x4096 .f32) (x1 : Vec F S128x2 .f32) (x2 : Vec F S2x4096 .f32) (x3 : Vec F S2x4096 .f32) (xo4 : Vec F S1x2 .f32)

set_option maxHeartbeats 1000000 in
include hc0 in
noncomputable def kernelRun1_B :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__kernelB_body i arg1 harg1 arg2 harg2 arg3 harg3 arg4 harg4 arg5 harg5) K } := by
  refine ⟨?_, fun E K => ?run⟩
  case run =>
    simp only [cc1__kernelB_body_eq_skeleton]; unfold cc1__kernelB_body_skel
    simp only [k1_part1_eq_skeleton]
    rw [owns_whole c harg1, owns_whole c harg2, owns_whole c harg3, owns_whole c harg4, owns_whole c harg5]
    iintro ⟨H0, H1, H2, H3, H4, Hk⟩
    sl_exec (disch := first | exact hc0)
    sl_step
    iapply Hk
    iframe H0 H1 H2 H3
    iexists _; iexact H4

theorem cover1_B_4 (y : S1x2.Idx) :
    ∃ pc ∈ (kernelRun1_B c i arg1 harg1 arg2 harg2 arg3 harg3 arg4 harg4 arg5 harg5 hc0 x0 x1 x2 x3 xo4).1, y ∈ pc.1.set :=
  View.cover_of_tiledL (kernelRun1_B c i arg1 harg1 arg2 harg2 arg3 harg3 arg4 harg4 arg5 harg5 hc0 x0 x1 x2 x3 xo4).1 S1x1.size (by sl_kernel_rfl) y

def out1_B_4 : Vec F S1x2 .f32 :=
  VO1_4.read (Elt F) (VO1_4.writes (Elt F) VO1_4.junk (kernelRun1_B c i arg1 harg1 arg2 harg2 arg3 harg3 arg4 harg4 arg5 harg5 hc0 x0 x1 x2 x3 xo4).1)
end
end

def outsAt1 (c : Dev nD) : (n : ℕ) → n < cfg1.N → Vec F S1x2 .f32
  | n, hn =>
    if h0 : n % 64 = 0 then
      out1_A_4 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) ((hcond1_0 ⟨n, hn⟩).mpr h0) (iblk1 V c 0 ⟨n, hn⟩) (iblk1 V c 1 ⟨n, hn⟩) (iblk1 V c 2 ⟨n, hn⟩) (iblk1 V c 3 ⟨n, hn⟩)
    else
      out1_B_4 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (fun h => h0 ((hcond1_0 ⟨n, hn⟩).mp h)) (iblk1 V c 0 ⟨n, hn⟩) (iblk1 V c 1 ⟨n, hn⟩) (iblk1 V c 2 ⟨n, hn⟩) (iblk1 V c 3 ⟨n, hn⟩) (outsAt1 c (n - 1) (Nat.lt_of_le_of_lt (Nat.sub_le _ _) hn))
termination_by n => n
decreasing_by omega

theorem outsAt1_A (c : Dev nD) (t : Fin cfg1.N) (h0 : t.val % 64 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  rw [outsAt1, dif_pos h0]

theorem outsAt1_B (c : Dev nD) (t : Fin cfg1.N) (h0 : ¬t.val % 64 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  rw [outsAt1, dif_neg h0]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = (outsAt1 V c t.val t.isLt) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4_B (c : Dev nD) (t : Fin cfg1.N) (h0 : ¬t.val % 64 = 0) (d) :
    (dat1 V c).before 4 t d = (outsAt1 V c (t.val - 1) (Nat.lt_of_le_of_lt (Nat.sub_le _ _) t.isLt)) := by
  have hN : t.val < 64 := lt_of_lt_of_eq t.isLt (show cfg1.N = 64 from N_1)
  exact Dat.before_out_kept _ 4 rfl t (by omega) (Bool.eq_false_iff.mpr fun h => by have := (flush1_4 _).mp h; dsimp only at this; omega)
    (fun _ => rfl) (fun _ _ => rfl) d

set_option maxHeartbeats 1600000 in
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame (wpE (defs₀ (F := F)) Variants.none c none) Set.univ (bodyAt1 t) (fun _ =>
      iprop((dat1 V c).Φ t.castSucc ∗ (dat1 V c).owesAt () t.castSucc
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (iblk1 V c 3 t)
        ∗ owns (c : Thread nD τ) (ms1_4 t) fullShare (outsAt1 V c t.val t.isLt))) := by
  unfold bodyAt1
  simp only [before1_0, before1_1, before1_2, before1_3]
  by_cases h0 : t.val % 64 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    iframe H0 H1 H2 H3
    isplitl [H4]; · iexists _; iexact H4
    iintro ⟨H0, H1, H2, H3, ⟨%e4, H4⟩⟩
    iframe HΦ Ho H0 H1 H2 H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    iframe H0 H1 H2 H3 H4
    iintro ⟨H0, H1, H2, H3, ⟨%e4, H4⟩⟩
    iframe HΦ Ho H0 H1 H2 H3
    unfold owns; iexists _; isplitr
    swap; · iexact H4
    ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Main.lean ====
import proofs.«156448_j71244917506189_1_alg».proof.Proof.K.R0Frame
import proofs.«156448_j71244917506189_1_alg».proof.Proof.K.R1Frame
import proofs.«156448_j71244917506189_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
-- after a region: its arrays at their final contents, every other buffer unchanged
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev W5 : Dev nD → Valuation τ sig (Elt F) := fun c => StableHlo.after hostOps2 (W4 m c)

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

-- a buffer no host operation writes and each region leaves alone ends as launched
theorem W5_arg (c : Dev nD) (r : Ref sig .tc) (h2 : r ∉ hostOps2_W) (h1 : r ∉ hostOps1_W) (h0 : r ∉ hostOps0_W)
    (k1 : W4 m c (Proc.devRef .tc r) = W3 m c (Proc.devRef .tc r)) (k0 : W2 m c (Proc.devRef .tc r) = W1 m c (Proc.devRef .tc r)) :
    W5 m c (Proc.devRef .tc r) = m ((c : Thread nD τ).loc r) :=
  (W5_keep m c r h2).trans (k1.trans ((W3_keep m c r h1).trans (k0.trans (W1_keep m c r h0))))
theorem W5_main_arg0 (c : Dev nD) : W5 m c (Proc.devRef .tc main_arg0) = m ((c : Thread nD τ).loc main_arg0) :=
  W5_arg m c main_arg0 (by decide) (by decide) (by decide) (W4_in m c 0 rfl) (W2_of_ne m c main_arg0 (by decide))
theorem W5_main_arg1 (c : Dev nD) : W5 m c (Proc.devRef .tc main_arg1) = m ((c : Thread nD τ).loc main_arg1) :=
  W5_arg m c main_arg1 (by decide) (by decide) (by decide) (W4_of_ne m c main_arg1 (by decide)) (W2_in m c 0 rfl)
theorem W5_main_arg2 (c : Dev nD) : W5 m c (Proc.devRef .tc main_arg2) = m ((c : Thread nD τ).loc main_arg2) :=
  W5_arg m c main_arg2 (by decide) (by decide) (by decide) (W4_of_ne m c main_arg2 (by decide)) (W2_in m c 1 rfl)
theorem W5_main_arg3 (c : Dev nD) : W5 m c (Proc.devRef .tc main_arg3) = m ((c : Thread nD τ).loc main_arg3) :=
  W5_arg m c main_arg3 (by decide) (by decide) (by decide) (W4_of_ne m c main_arg3 (by decide)) (W2_of_ne m c main_arg3 (by decide))
theorem W5_main_arg4 (c : Dev nD) : W5 m c (Proc.devRef .tc main_arg4) = m ((c : Thread nD τ).loc main_arg4) :=
  W5_arg m c main_arg4 (by decide) (by decide) (by decide) (W4_of_ne m c main_arg4 (by decide)) (W2_of_ne m c main_arg4 (by decide))

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev Lno : GSem nD τ sig → Finset Unit := fun _ => ∅
abbrev lvno : GSem nD τ sig → Unit → ℕ := fun _ _ => 0
abbrev Rside (c : Dev nD) : sProp 𝕄 := iprop((∃ r, prngReg c r) ∗ ∃ W, owes (c : Thread nD τ) (0 : CellTallies nD τ sig Unit) W)
abbrev Tat (W : Dev nD → Valuation τ sig (Elt F)) (c : Dev nD) : sProp 𝕄 := iprop(StableHlo.held (c : Thread nD τ) (Pipeline.ucRefs τ sig) (W c) ∗ Rside c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W5 m c) ∗ ∃ r, prngReg c r)

set_option backward.isDefEq.respectTransparency.types false in
def reg0 : Pipeline.RegionSeg (pcfgs (F := F)) adm (pdats m) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lno lvno 0 fun _ _ => rfl
  pre := Tat (W1 m)
  post := Tat (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine (?_ : _ ⊢ Pipeline.ΦA spec0 c).trans (hin0 (V1 m) c)
    unfold Pipeline.ΦA
    iintro ⟨Hp, -, Hr⟩
    iframe Hr Hp
  hout c := by
    rw [Pipeline.ownSems0_none]
    refine (hout0 (V1 m) c).trans ?_
    unfold Pipeline.ΦA
    iintro ⟨Hr, Hp⟩
    iframe Hp Hr
    iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (fun w => (W2_arr m c w).symm)
      fun b hb => W2_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ Lno lvno 1 fun _ _ => rfl
  pre := Tat (W3 m)
  post := Tat (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe Hr Hp
  hout c := by
    rw [Pipeline.ownSems0_none, show (pdats m 1 c).Φ (Fin.last _) = Pipeline.ΦA spec1 c from rfl]; unfold Pipeline.ΦA
    iintro ⟨Hr, Hp⟩
    iframe Hp Hr
    iempintro
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (fun w => (W4_arr m c w).symm)
      fun b hb => W4_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ Lno lvno) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ Lno lvno m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m)) (Tₙ := Tend m)
    (hch := ⟨fun _ => .rfl, fun _ => .rfl, fun _ => .rfl, fun _ => .rfl, fun _ => .rfl, fun c => by
      show Tat (W5 m) c ⊢ _
      iintro ⟨Hh, Hp, HO⟩
      isplitl [Hh Hp]
      · isplitl [Hh] <;> iassumption
      iexact HO⟩)
    (hinit := by
      refine Pipeline.initEach Lno lvno fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      iframe Hh HSI)
    (hQ := fun s h => h)

-- no item writes an argument array
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Frame

end
-- ==== Proof.KI.R0Frame.lean ====
import proofs.«156448_j71244917506189_1_alg».proof.Proof.Gen.KernelIdeal.Launch
import proofs.«156448_j71244917506189_1_alg».proof.Proof.Gen.KernelIdeal.Skeleton
import proofs.«156448_j71244917506189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

abbrev VO0_3 : View sig .tc .vmem S2x512 .f32 := (Memref.whole cc0_stg3_0 : Memref sig .tc .vmem S2x512 .f32).view
abbrev VO0_4 : View sig .tc .vmem S2x512 .f32 := (Memref.whole cc0_stg4_0 : Memref sig .tc .vmem S2x512 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .f32 := win0_4.stage (cfg0.slots t 4)
abbrev hs0_4 (t : Fin cfg0.N) : (ms0_4 t).IsWhole := hstage0_4 ((cfg0.slots t 4).cast nbuf0_4)
abbrev scM0_0 : Memref sig .tc .vmem S2x512 .f32 := Memref.whole cc0_scratch0
abbrev scM0_1 : Memref sig .tc .vmem S2x512 .f32 := Memref.whole cc0_scratch1
abbrev VS0_0 : View sig .tc .vmem S2x512 .f32 := scM0_0.view
abbrev VS0_1 : View sig .tc .vmem S2x512 .f32 := scM0_1.view

def restS0 : sProp 𝕄 :=
  bigSepL [cc1_stg0_0, cc1_stg0_1, cc1_stg1_0, cc1_stg1_1, cc1_stg2_0, cc1_stg3_0, cc1_stg4_0] fun b =>
    iprop(∃ f : Buf (Elt F) ((c : Thread nD τ).loc b), ((c : Thread nD τ).loc b) ↦{fullShare} f)

theorem PhiA0_eq :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

-- Writes that cover a buffer leave it holding what they read back, whatever it held before.
theorem owns_of_cover {sp : Space} {s : Shape} {e : EltTy} {κ' : Kind} {sp' : Space} (v' : View sig κ' sp' s e) {M : Memref sig .tc sp s e}
    {L : List (View.Piece (Elt F) s e)} (h : ∀ y, ∃ p ∈ L, y ∈ p.1.set) :
    (iprop(∃ g, M.view.loc (c : Thread nD τ) ↦[M.view.set]{fullShare} M.view.writes (Elt F) g L) : sProp 𝕄)
      ⊢ owns (c : Thread nD τ) M fullShare (v'.read (Elt F) (v'.writes (Elt F) v'.junk L)) := by
  iintro ⟨%g, H⟩; unfold owns; iexists M.view.writes (Elt F) g L; isplitr
  · ipureintro; exact View.read_writes_of_cover _ _ _ _ _ h
  · iexact H

section Body

variable (i : grid0.Coords) (arg2 : Memref sig .tc .vmem S1024x512 .f32) (harg2 : arg2.IsWhole) (arg3 : Memref sig .tc .vmem S1024x512 .f32) (harg3 : arg3.IsWhole) (arg4 : Memref sig .tc .vmem S1024x2 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (arg8 : Memref sig .tc .vmem S2x512 .f32) (harg8 : arg8.IsWhole)

-- The states a 2 x 512 buffer is held in: at given contents, at any contents, at writes over any filling.
abbrev atC (x : Vec F S2x512 .f32) (m : Memref sig .tc .vmem S2x512 .f32) : sProp 𝕄 := owns (c : Thread nD τ) m fullShare x
abbrev anyC (m : Memref sig .tc .vmem S2x512 .f32) : sProp 𝕄 := iprop(∃ d, owns (c : Thread nD τ) m fullShare d)
abbrev wrC (L : List (View.Piece (Elt F) S2x512 .f32)) (m : Memref sig .tc .vmem S2x512 .f32) : sProp 𝕄 :=
  iprop(∃ f, m.view.loc (c : Thread nD τ) ↦[m.view.set]{fullShare} m.view.writes (Elt F) f L)

-- A run of the body: handed the three inputs at `x0 x1 x2` and the four 2 x 512 buffers as `P` says, it gives the inputs back untouched and the four as `Q` says.
abbrev Runs (x0 : Vec F S1024x512 .f32) (x1 : Vec F S1024x512 .f32) (x2 : Vec F S1024x2 .f32) (P5 P6 P7 P8 Q5 Q6 Q7 Q8 : Memref sig .tc .vmem S2x512 .f32 → sProp 𝕄) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P5 arg5 ∗ P6 arg6 ∗ P7 arg7 ∗ P8 arg8
        ∗ (iprop(owns (c : Thread nD τ) arg2 fullShare x0 ∗ owns (c : Thread nD τ) arg3 fullShare x1 ∗ owns (c : Thread nD τ) arg4 fullShare x2 ∗ Q5 arg5 ∗ Q6 arg6 ∗ Q7 arg7 ∗ Q8 arg8) -∗ K ⟨⟩))
      ⊢ wp frame (wpE (defs₀ (F := F)) Variants.none c none) E (cc0__kernelA_body i arg2 harg2 arg3 harg3 arg4 harg4 arg5 harg5 arg6 harg6 arg7 harg7 arg8 harg8) K

section A

variable (hc0 : cond0_0 i) (hc1 : ¬cond0_1 i) (x0 : Vec F S1024x512 .f32) (x1 : Vec F S1024x512 .f32) (x2 : Vec F S1024x2 .f32)

set_option maxHeartbeats 1000000 in
noncomputable def kernelRun0_A :
    Σ' (L3 L4 LS0 : List (View.Piece (Elt F) S2x512 .f32)), { LS1 : List (View.Piece (Elt F) S2x512 .f32) //
      ∀ xi3 xi4, Runs c i arg2 harg2 arg3 harg3 arg4 harg4 arg5 harg5 arg6 harg6 arg7 harg7 arg8 harg8 x0 x1 x2 (atC c xi3) (atC c xi4) (anyC c) (anyC c) (atC c xi3) (atC c xi4) (wrC c LS0) (wrC c LS1) } := by
  refine ⟨[], [], ?_, ?_, fun xi3 xi4 E K => ?run⟩
  case run =>
    simp only [cc0__kernelA_body_eq_skeleton]; unfold cc0__kernelA_body_skel
    simp only [k0_part1_eq_skeleton]
    dsimp only [atC, anyC, wrC]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    sl_close

end A

section B

variable (hc0 : ¬cond0_0 i) (hc1 : ¬cond0_1 i) (x0 : Vec F S1024x512 .f32) (x1 : Vec F S1024x512 .f32) (x2 : Vec F S1024x2 .f32) (xs0 : Vec F S2x512 .f32) (xs1 : Vec F S2x512 .f32)

set_option maxHeartbeats 1000000 in
noncomputable def kernelRun0_B :
    Σ' (L3 L4 LS0 : List (View.Piece (Elt F) S2x512 .f32)), { LS1 : List (View.Piece (Elt F) S2x512 .f32) //
      ∀ xi3 xi4, Runs c i arg2 harg2 arg3 harg3 arg4 harg4 arg5 harg5 arg6 harg6 arg7 harg7 arg8 harg8 x0 x1 x2 (atC c xi3) (atC c xi4) (atC c xs0) (atC c xs1) (atC c xi3) (atC c xi4) (wrC c LS0) (wrC c LS1) } := by
  refine ⟨[], [], ?_, ?_, fun xi3 xi4 E K => ?run⟩
  case run =>
    simp only [cc0__kernelA_body_eq_skeleton]; unfold cc0__kernelA_body_skel
    simp only [k0_part1_eq_skeleton]
    dsimp only [atC, anyC, wrC]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    sl_close

end B

section C

variable (hc0 : ¬cond0_0 i) (hc1 : cond0_1 i) (x0 : Vec F S1024x512 .f32) (x1 : Vec F S1024x512 .f32) (x2 : Vec F S1024x2 .f32) (xs0 : Vec F S2x512 .f32) (xs1 : Vec F S2x512 .f32)

set_option maxHeartbeats 1000000 in
noncomputable def kernelRun0_C :
    Σ' (L3 L4 LS0 : List (View.Piece (Elt F) S2x512 .f32)), { LS1 : List (View.Piece (Elt F) S2x512 .f32) //
      Runs c i arg2 harg2 arg3 harg3 arg4 harg4 arg5 harg5 arg6 harg6 arg7 harg7 arg8 harg8 x0 x1 x2 (anyC c) (anyC c) (atC c xs0) (atC c xs1) (wrC c L3) (wrC c L4) (wrC c LS0) (wrC c LS1) } := by
  refine ⟨?_, ?_, ?_, ?_, fun E K => ?run⟩
  case run =>
    simp only [cc0__kernelA_body_eq_skeleton]; unfold cc0__kernelA_body_skel
    simp only [k0_part1_eq_skeleton]
    dsimp only [atC, anyC, wrC]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    sl_close

end C

end Body

-- Each case's run at a point's memrefs and input blocks; its pieces for the two accumulators (and, where it copies out, the two output blocks) cover them.
abbrev run0_A (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)
abbrev run0_B (t : Fin cfg0.N) (h0 : ¬t.val % 8 = 0) (h1 : ¬t.val % 8 = 7) (xs0 xs1 : Vec F S2x512 .f32) :=
  kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1
abbrev run0_C (t : Fin cfg0.N) (h0 : ¬t.val % 8 = 0) (h1 : t.val % 8 = 7) (xs0 xs1 : Vec F S2x512 .f32) :=
  kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1

theorem cover0_A (t : Fin cfg0.N) (h0 : t.val % 8 = 0) (h1 : ¬t.val % 8 = 7) :
    (∀ y, ∃ pc ∈ (run0_A V c t h0 h1).2.2.1, y ∈ pc.1.set) ∧ ∀ y, ∃ pc ∈ (run0_A V c t h0 h1).2.2.2.1, y ∈ pc.1.set :=
  ⟨View.cover_of_tiledL (s := S2x512) _ S1x512.size (by sl_kernel_rfl), View.cover_of_tiledL (s := S2x512) _ S1x512.size (by sl_kernel_rfl)⟩
theorem cover0_B (t : Fin cfg0.N) (h0 : ¬t.val % 8 = 0) (h1 : ¬t.val % 8 = 7) (xs0 xs1 : Vec F S2x512 .f32) :
    (∀ y, ∃ pc ∈ (run0_B V c t h0 h1 xs0 xs1).2.2.1, y ∈ pc.1.set) ∧ ∀ y, ∃ pc ∈ (run0_B V c t h0 h1 xs0 xs1).2.2.2.1, y ∈ pc.1.set :=
  ⟨View.cover_of_tiledL (s := S2x512) _ S1x512.size (by sl_kernel_rfl), View.cover_of_tiledL (s := S2x512) _ S1x512.size (by sl_kernel_rfl)⟩
theorem cover0_C (t : Fin cfg0.N) (h0 : ¬t.val % 8 = 0) (h1 : t.val % 8 = 7) (xs0 xs1 : Vec F S2x512 .f32) :
    (∀ y, ∃ pc ∈ (run0_C V c t h0 h1 xs0 xs1).1, y ∈ pc.1.set) ∧ (∀ y, ∃ pc ∈ (run0_C V c t h0 h1 xs0 xs1).2.1, y ∈ pc.1.set)
      ∧ (∀ y, ∃ pc ∈ (run0_C V c t h0 h1 xs0 xs1).2.2.1, y ∈ pc.1.set) ∧ ∀ y, ∃ pc ∈ (run0_C V c t h0 h1 xs0 xs1).2.2.2.1, y ∈ pc.1.set :=
  ⟨View.cover_of_tiledL (s := S2x512) _ S2x512.size (by sl_kernel_rfl), View.cover_of_tiledL (s := S2x512) _ S2x512.size (by sl_kernel_rfl), View.cover_of_tiledL (s := S2x512) _ S1x512.size (by sl_kernel_rfl), View.cover_of_tiledL (s := S2x512) _ S1x512.size (by sl_kernel_rfl)⟩

-- The four buffers after a point, case by case: the two output blocks (read only where the case stores into them) and the two accumulators.
abbrev pt0_A (t : Fin cfg0.N) (h0 : t.val % 8 = 0) (h1 : ¬t.val % 8 = 7) : Vec F S2x512 .f32 × Vec F S2x512 .f32 × Vec F S2x512 .f32 × Vec F S2x512 .f32 :=
  (VO0_3.read (Elt F) VO0_3.junk, VO0_4.read (Elt F) VO0_4.junk,
   VS0_0.read (Elt F) (VS0_0.writes (Elt F) VS0_0.junk (run0_A V c t h0 h1).2.2.1), VS0_1.read (Elt F) (VS0_1.writes (Elt F) VS0_1.junk (run0_A V c t h0 h1).2.2.2.1))
abbrev pt0_B (t : Fin cfg0.N) (h0 : ¬t.val % 8 = 0) (h1 : ¬t.val % 8 = 7) (xs0 xs1 : Vec F S2x512 .f32) : Vec F S2x512 .f32 × Vec F S2x512 .f32 × Vec F S2x512 .f32 × Vec F S2x512 .f32 :=
  (VO0_3.read (Elt F) VO0_3.junk, VO0_4.read (Elt F) VO0_4.junk,
   VS0_0.read (Elt F) (VS0_0.writes (Elt F) VS0_0.junk (run0_B V c t h0 h1 xs0 xs1).2.2.1), VS0_1.read (Elt F) (VS0_1.writes (Elt F) VS0_1.junk (run0_B V c t h0 h1 xs0 xs1).2.2.2.1))
abbrev pt0_C (t : Fin cfg0.N) (h0 : ¬t.val % 8 = 0) (h1 : t.val % 8 = 7) (xs0 xs1 : Vec F S2x512 .f32) : Vec F S2x512 .f32 × Vec F S2x512 .f32 × Vec F S2x512 .f32 × Vec F S2x512 .f32 :=
  (VO0_3.read (Elt F) (VO0_3.writes (Elt F) VO0_3.junk (run0_C V c t h0 h1 xs0 xs1).1), VO0_4.read (Elt F) (VO0_4.writes (Elt F) VO0_4.junk (run0_C V c t h0 h1 xs0 xs1).2.1),
   VS0_0.read (Elt F) (VS0_0.writes (Elt F) VS0_0.junk (run0_C V c t h0 h1 xs0 xs1).2.2.1), VS0_1.read (Elt F) (VS0_1.writes (Elt F) VS0_1.junk (run0_C V c t h0 h1 xs0 xs1).2.2.2.1))

def outsAt0 : (n : ℕ) → n < cfg0.N → Vec F S2x512 .f32 × Vec F S2x512 .f32 × Vec F S2x512 .f32 × Vec F S2x512 .f32
  | 0, hn => pt0_A V c ⟨0, hn⟩ (Nat.zero_mod _) (show ¬(0 : ℕ) % 8 = 7 by decide)
  | n + 1, hn =>
    if h0 : (n + 1) % 8 = 0 then
      if h1 : (n + 1) % 8 = 7 then
        False.elim (by omega)
      else
        pt0_A V c ⟨n + 1, hn⟩ h0 h1
    else
      if h1 : (n + 1) % 8 = 7 then
        pt0_C V c ⟨n + 1, hn⟩ h0 h1 (outsAt0 n (Nat.lt_of_succ_lt hn)).2.2.1 (outsAt0 n (Nat.lt_of_succ_lt hn)).2.2.2
      else
        pt0_B V c ⟨n + 1, hn⟩ h0 h1 (outsAt0 n (Nat.lt_of_succ_lt hn)).2.2.1 (outsAt0 n (Nat.lt_of_succ_lt hn)).2.2.2

theorem outsAt0_A (t : Fin cfg0.N) (h0 : t.val % 8 = 0) (h1 : ¬t.val % 8 = 7) :
    outsAt0 V c t.val t.isLt = pt0_A V c t h0 h1 := by
  obtain ⟨n, hn⟩ := t
  cases n with
  | zero => exact rfl
  | succ n => exact (dif_pos h0).trans ((dif_neg h1).trans rfl)

theorem outsAt0_B (t : Fin cfg0.N) (h0 : ¬t.val % 8 = 0) (h1 : ¬t.val % 8 = 7) :
    outsAt0 V c t.val t.isLt = pt0_B V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (t : Fin cfg0.N) (h0 : ¬t.val % 8 = 0) (h1 : t.val % 8 = 7) :
    outsAt0 V c t.val t.isLt = pt0_C V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

-- Before the first point the accumulators hold anything; afterwards what the point before left in them.
def PhiS0 : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restS0 (F := F) c) ∗ (∃ r, prngReg c r))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (w : Fin cfg0.W) : (dat0 V c).A w = V c (Pipeline.arrRef spec0 w) := by
  dsimp only [dat0]

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = (outsAt0 V c t.val t.isLt).1 := by dsimp only [dat0]
theorem after0_4 (t : Fin cfg0.N) : (dat0 V c).after 4 t = (outsAt0 V c t.val t.isLt).2.1 := by dsimp only [dat0]

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl

theorem leaves0_live (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

theorem Phi0_succ (t : Fin cfg0.N) :
    (dat0 V c).Φ t.succ = iprop(iprop(owns (c : Thread nD τ) scM0_0 fullShare ((outsAt0 V c t.val t.isLt).2.2.1) ∗ owns (c : Thread nD τ) scM0_1 fullShare ((outsAt0 V c t.val t.isLt).2.2.2) ∗ restS0 (F := F) c) ∗ (∃ r, prngReg c r)) := rfl

theorem Phi0_pos (t : Fin cfg0.N) (hz : t.val ≠ 0) :
    (dat0 V c).Φ t.castSucc = iprop(iprop(owns (c : Thread nD τ) scM0_0 fullShare ((outsAt0 V c (t.val - 1) (by omega)).2.2.1) ∗ owns (c : Thread nD τ) scM0_1 fullShare ((outsAt0 V c (t.val - 1) (by omega)).2.2.2) ∗ restS0 (F := F) c) ∗ (∃ r, prngReg c r)) := by
  obtain ⟨n, hn⟩ := t
  cases n with
  | zero => exact absurd rfl hz
  | succ n => rfl

-- At every position the invariant entails its form before the first point: the accumulators' contents are forgotten.
theorem Phi0_forget (t : Fin (cfg0.N + 1)) :
    (dat0 V c).Φ t ⊢ iprop(iprop((∃ d, owns (c : Thread nD τ) scM0_0 fullShare d) ∗ (∃ d, owns (c : Thread nD τ) scM0_1 fullShare d) ∗ restS0 (F := F) c) ∗ (∃ r, prngReg c r)) := by
  obtain ⟨n, hn⟩ := t
  cases n with
  | zero => exact Entails.of_eq (PhiA0_eq c)
  | succ n =>
    show PhiS0 V c (n + 1) _ ⊢ _
    unfold PhiS0
    iintro ⟨⟨HS0, HS1, HR⟩, Hg⟩
    iframe
    isplitl [HS0]; · iexists _; iexact HS0
    iexists _; iexact HS1

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
-- Each case's run takes the point's resources and gives them back, every buffer it stored into at writes that cover it.
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl, Phi0_succ,
    leaves0_live V c 0 t (liveAt0_0 t), leaves0_live V c 1 t (liveAt0_1 t), leaves0_live V c 2 t (liveAt0_2 t), after0_0, after0_1, after0_2]
  by_cases h0 : t.val % 8 = 0
  · have h1 : ¬t.val % 8 = 7 := by omega
    have hc1 : ¬cond0_1 (grid0.coords t) := fun h => h1 ((hcond0_1 t).mp h)
    rw [Dat.leavesExact_idle (dat0 V c) 3 t (idleAt0_3 t hc1) (noFlush0_3 t hc1),
      Dat.leavesExact_idle (dat0 V c) 4 t (idleAt0_4 t hc1) (noFlush0_4 t hc1), outsAt0_A V c t h0 h1]
    dsimp only [pt0_A]
    refine (sep_mono (Phi0_forget V c _) .rfl).trans ?_
    iintro ⟨⟨⟨HS0, HS1, HR⟩, Hg⟩, Ho, ⟨%d0, H0⟩, ⟨%d1, H1⟩, ⟨%d2, H2⟩, ⟨%d3, H3⟩, ⟨%d4, H4⟩⟩
    iapply ((run0_A V c t h0 h1).2.2.2.2 _ _ _ _)
    unfold atC anyC wrC
    iframe H0 H1 H2 H3 H4 HS0 HS1
    iintro ⟨H0, H1, H2, H3, H4, HS0, HS1⟩
    ihave HS0 := (owns_of_cover c VS0_0 (cover0_A V c t h0 h1).1) $$ HS0
    ihave HS1 := (owns_of_cover c VS0_1 (cover0_A V c t h0 h1).2) $$ HS1
    iframe
    isplitl [H3]; · iexists _; iexact H3
    iexists _; iexact H4
  · rw [Phi0_pos V c t fun hz => h0 (by rw [hz])]
    by_cases h1 : t.val % 8 = 7
    · have hc1 : cond0_1 (grid0.coords t) := (hcond0_1 t).mpr h1
      rw [leaves0_live V c 3 t (liveAt0_3 t hc1), leaves0_live V c 4 t (liveAt0_4 t hc1), after0_3, after0_4, outsAt0_C V c t h0 h1]
      dsimp only [pt0_C]
      iintro ⟨⟨⟨HS0, HS1, HR⟩, Hg⟩, Ho, ⟨%d0, H0⟩, ⟨%d1, H1⟩, ⟨%d2, H2⟩, H3, H4⟩
      iapply ((run0_C V c t h0 h1 _ _).2.2.2.2 _ _)
      unfold atC anyC wrC
      iframe H0 H1 H2 HS0 HS1
      isplitl [H3]
      · icases H3 with ⟨%d3, H3⟩; iexists _; iexact H3
      isplitl [H4]
      · icases H4 with ⟨%d4, H4⟩; iexists _; iexact H4
      iintro ⟨H0, H1, H2, H3, H4, HS0, HS1⟩
      ihave H3 := (owns_of_cover c VO0_3 (cover0_C V c t h0 h1 _ _).1) $$ H3
      ihave H4 := (owns_of_cover c VO0_4 (cover0_C V c t h0 h1 _ _).2.1) $$ H4
      ihave HS0 := (owns_of_cover c VS0_0 (cover0_C V c t h0 h1 _ _).2.2.1) $$ HS0
      ihave HS1 := (owns_of_cover c VS0_1 (cover0_C V c t h0 h1 _ _).2.2.2) $$ HS1
      iframe
    · have hc1 : ¬cond0_1 (grid0.coords t) := fun h => h1 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1), outsAt0_B V c t h0 h1]
      dsimp only [pt0_B]
      iintro ⟨⟨⟨HS0, HS1, HR⟩, Hg⟩, Ho, ⟨%d0, H0⟩, ⟨%d1, H1⟩, ⟨%d2, H2⟩, ⟨%d3, H3⟩, ⟨%d4, H4⟩⟩
      iapply ((run0_B V c t h0 h1 _ _).2.2.2.2 _ _ _ _)
      unfold atC wrC
      iframe H0 H1 H2 H3 H4 HS0 HS1
      iintro ⟨H0, H1, H2, H3, H4, HS0, HS1⟩
      ihave HS0 := (owns_of_cover c VS0_0 (cover0_B V c t h0 h1 _ _).1) $$ HS0
      ihave HS1 := (owns_of_cover c VS0_1 (cover0_B V c t h0 h1 _ _).2) $$ HS1
      iframe
      isplitl [H3]; · iexists _; iexact H3
      iexists _; iexact H4

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem hout0 : (dat0 V c).Φ (Fin.last cfg0.N) ⊢ Pipeline.ΦA spec0 c :=
  (Phi0_forget V c _).trans (Entails.of_eq (PhiA0_eq c).symm)

end Cert.KernelIdeal.Frame

end
-- ==== Proof.KI.R1Frame.lean ====
import proofs.«156448_j71244917506189_1_alg».proof.Proof.Gen.KernelIdeal.Launch
import proofs.«156448_j71244917506189_1_alg».proof.Proof.Gen.KernelIdeal.Skeleton
import proofs.«156448_j71244917506189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

abbrev VO1_4 : View sig .tc .vmem S1x2 .f32 := (Memref.whole cc1_stg4_0 : Memref sig .tc .vmem S1x2 .f32).view
abbrev ms1_0 (t : Fin cfg1.N) : Memref sig .tc .vmem S128x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)

-- a whole buffer read as `x` has exactly one raw filling, so owning it at `x` is holding that filling
theorem owns_whole (c : Dev nD) {sp : Space} {s : Shape} {e : EltTy} {a : Memref sig .tc sp s e} (h : a.IsWhole) (x : s.Idx → Elt F e) :
    (owns (c : Thread nD τ) a fullShare x : sProp 𝕄) = (a.view.loc (c : Thread nD τ) ↦[a.view.set]{fullShare} h.unread x) := by
  unfold owns
  refine Entails.antisymm (?_ : (_ : sProp 𝕄) ⊢ _) (?_ : (_ : sProp 𝕄) ⊢ _)
  · iintro ⟨%f, %hf, H⟩; obtain rfl := h.eq_unread hf; iexact H
  · iintro H; iexists _; isplitr; · ipureintro; exact h.read_unread _
    iexact H

section
variable (c : Dev nD) (i : grid1.Coords) (arg1 : Memref sig .tc .vmem S128x4096 .f32) (harg1 : arg1.IsWhole) (arg2 : Memref sig .tc .vmem S128x2 .f32) (harg2 : arg2.IsWhole) (arg3 : Memref sig .tc .vmem S2x4096 .f32) (harg3 : arg3.IsWhole) (arg4 : Memref sig .tc .vmem S2x4096 .f32) (harg4 : arg4.IsWhole) (arg5 : Memref sig .tc .vmem S1x2 .f32) (harg5 : arg5.IsWhole)

section
variable (hc0 : cond1_0 i) (x0 : Vec F S128x4096 .f32) (x1 : Vec F S128x2 .f32) (x2 : Vec F S2x4096 .f32) (x3 : Vec F S2x4096 .f32)

set_option maxHeartbeats 1000000 in
include hc0 in
noncomputable def kernelRun1_A :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__kernelB_body i arg1 harg1 arg2 harg2 arg3 harg3 arg4 harg4 arg5 harg5) K } := by
  refine ⟨?_, fun E K => ?run⟩
  case run =>
    simp only [cc1__kernelB_body_eq_skeleton]; unfold cc1__kernelB_body_skel
    simp only [k1_part1_eq_skeleton]
    rw [owns_whole c harg1, owns_whole c harg2, owns_whole c harg3, owns_whole c harg4]; unfold owns
    iintro ⟨H0, H1, H2, H3, ⟨%d4, %f4, -, H4⟩, Hk⟩
    sl_exec (disch := first | exact hc0)
    sl_step
    iapply Hk
    iframe H0 H1 H2 H3
    iexists _; iexact H4

theorem cover1_A_4 (y : S1x2.Idx) :
    ∃ pc ∈ (kernelRun1_A c i arg1 harg1 arg2 harg2 arg3 harg3 arg4 harg4 arg5 harg5 hc0 x0 x1 x2 x3).1, y ∈ pc.1.set :=
  View.cover_of_tiledL (kernelRun1_A c i arg1 harg1 arg2 harg2 arg3 harg3 arg4 harg4 arg5 harg5 hc0 x0 x1 x2 x3).1 S1x2.size (by sl_kernel_rfl) y

def out1_A_4 : Vec F S1x2 .f32 :=
  VO1_4.read (Elt F) (VO1_4.writes (Elt F) VO1_4.junk (kernelRun1_A c i arg1 harg1 arg2 harg2 arg3 harg3 arg4 harg4 arg5 harg5 hc0 x0 x1 x2 x3).1)
end

section
variable (hc0 : ¬cond1_0 i) (x0 : Vec F S128x4096 .f32) (x1 : Vec F S128x2 .f32) (x2 : Vec F S2x4096 .f32) (x3 : Vec F S2x4096 .f32) (xo4 : Vec F S1x2 .f32)

set_option maxHeartbeats 1000000 in
include hc0 in
noncomputable def kernelRun1_B :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__kernelB_body i arg1 harg1 arg2 harg2 arg3 harg3 arg4 harg4 arg5 harg5) K } := by
  refine ⟨?_, fun E K => ?run⟩
  case run =>
    simp only [cc1__kernelB_body_eq_skeleton]; unfold cc1__kernelB_body_skel
    simp only [k1_part1_eq_skeleton]
    rw [owns_whole c harg1, owns_whole c harg2, owns_whole c harg3, owns_whole c harg4, owns_whole c harg5]
    iintro ⟨H0, H1, H2, H3, H4, Hk⟩
    sl_exec (disch := first | exact hc0)
    sl_step
    iapply Hk
    iframe H0 H1 H2 H3
    iexists _; iexact H4

theorem cover1_B_4 (y : S1x2.Idx) :
    ∃ pc ∈ (kernelRun1_B c i arg1 harg1 arg2 harg2 arg3 harg3 arg4 harg4 arg5 harg5 hc0 x0 x1 x2 x3 xo4).1, y ∈ pc.1.set :=
  View.cover_of_tiledL (kernelRun1_B c i arg1 harg1 arg2 harg2 arg3 harg3 arg4 harg4 arg5 harg5 hc0 x0 x1 x2 x3 xo4).1 S1x1.size (by sl_kernel_rfl) y

def out1_B_4 : Vec F S1x2 .f32 :=
  VO1_4.read (Elt F) (VO1_4.writes (Elt F) VO1_4.junk (kernelRun1_B c i arg1 harg1 arg2 harg2 arg3 harg3 arg4 harg4 arg5 harg5 hc0 x0 x1 x2 x3 xo4).1)
end
end

def outsAt1 (c : Dev nD) : (n : ℕ) → n < cfg1.N → Vec F S1x2 .f32
  | n, hn =>
    if h0 : n % 64 = 0 then
      out1_A_4 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) ((hcond1_0 ⟨n, hn⟩).mpr h0) (iblk1 V c 0 ⟨n, hn⟩) (iblk1 V c 1 ⟨n, hn⟩) (iblk1 V c 2 ⟨n, hn⟩) (iblk1 V c 3 ⟨n, hn⟩)
    else
      out1_B_4 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (fun h => h0 ((hcond1_0 ⟨n, hn⟩).mp h)) (iblk1 V c 0 ⟨n, hn⟩) (iblk1 V c 1 ⟨n, hn⟩) (iblk1 V c 2 ⟨n, hn⟩) (iblk1 V c 3 ⟨n, hn⟩) (outsAt1 c (n - 1) (Nat.lt_of_le_of_lt (Nat.sub_le _ _) hn))
termination_by n => n
decreasing_by omega

theorem outsAt1_A (c : Dev nD) (t : Fin cfg1.N) (h0 : t.val % 64 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  rw [outsAt1, dif_pos h0]

theorem outsAt1_B (c : Dev nD) (t : Fin cfg1.N) (h0 : ¬t.val % 64 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  rw [outsAt1, dif_neg h0]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = (outsAt1 V c t.val t.isLt) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4_B (c : Dev nD) (t : Fin cfg1.N) (h0 : ¬t.val % 64 = 0) (d) :
    (dat1 V c).before 4 t d = (outsAt1 V c (t.val - 1) (Nat.lt_of_le_of_lt (Nat.sub_le _ _) t.isLt)) := by
  have hN : t.val < 64 := lt_of_lt_of_eq t.isLt (show cfg1.N = 64 from N_1)
  exact Dat.before_out_kept _ 4 rfl t (by omega) (Bool.eq_false_iff.mpr fun h => by have := (flush1_4 _).mp h; dsimp only at this; omega)
    (fun _ => rfl) (fun _ _ => rfl) d

set_option maxHeartbeats 1600000 in
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d)))
    ⊢ wp frame (wpE (defs₀ (F := F)) Variants.none c none) Set.univ (bodyAt1 t) (fun _ =>
      iprop((dat1 V c).Φ t.castSucc ∗ (dat1 V c).owesAt () t.castSucc
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (iblk1 V c 3 t)
        ∗ owns (c : Thread nD τ) (ms1_4 t) fullShare (outsAt1 V c t.val t.isLt))) := by
  unfold bodyAt1
  simp only [before1_0, before1_1, before1_2, before1_3]
  by_cases h0 : t.val % 64 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    iframe H0 H1 H2 H3
    isplitl [H4]; · iexists _; iexact H4
    iintro ⟨H0, H1, H2, H3, ⟨%e4, H4⟩⟩
    iframe HΦ Ho H0 H1 H2 H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    iframe H0 H1 H2 H3 H4
    iintro ⟨H0, H1, H2, H3, ⟨%e4, H4⟩⟩
    iframe HΦ Ho H0 H1 H2 H3
    unfold owns; iexists _; isplitr
    swap; · iexact H4
    ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Main.lean ====
import proofs.«156448_j71244917506189_1_alg».proof.Proof.KI.R0Frame
import proofs.«156448_j71244917506189_1_alg».proof.Proof.KI.R1Frame
import proofs.«156448_j71244917506189_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
-- after a region: its arrays at their final contents, every other buffer unchanged
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev W5 : Dev nD → Valuation τ sig (Elt F) := fun c => StableHlo.after hostOps2 (W4 m c)

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

-- a buffer no host operation writes and each region leaves alone ends as launched
theorem W5_arg (c : Dev nD) (r : Ref sig .tc) (h2 : r ∉ hostOps2_W) (h1 : r ∉ hostOps1_W) (h0 : r ∉ hostOps0_W)
    (k1 : W4 m c (Proc.devRef .tc r) = W3 m c (Proc.devRef .tc r)) (k0 : W2 m c (Proc.devRef .tc r) = W1 m c (Proc.devRef .tc r)) :
    W5 m c (Proc.devRef .tc r) = m ((c : Thread nD τ).loc r) :=
  (W5_keep m c r h2).trans (k1.trans ((W3_keep m c r h1).trans (k0.trans (W1_keep m c r h0))))
theorem W5_main_arg0 (c : Dev nD) : W5 m c (Proc.devRef .tc main_arg0) = m ((c : Thread nD τ).loc main_arg0) :=
  W5_arg m c main_arg0 (by decide) (by decide) (by decide) (W4_in m c 0 rfl) (W2_of_ne m c main_arg0 (by decide))
theorem W5_main_arg1 (c : Dev nD) : W5 m c (Proc.devRef .tc main_arg1) = m ((c : Thread nD τ).loc main_arg1) :=
  W5_arg m c main_arg1 (by decide) (by decide) (by decide) (W4_of_ne m c main_arg1 (by decide)) (W2_in m c 0 rfl)
theorem W5_main_arg2 (c : Dev nD) : W5 m c (Proc.devRef .tc main_arg2) = m ((c : Thread nD τ).loc main_arg2) :=
  W5_arg m c main_arg2 (by decide) (by decide) (by decide) (W4_of_ne m c main_arg2 (by decide)) (W2_in m c 1 rfl)
theorem W5_main_arg3 (c : Dev nD) : W5 m c (Proc.devRef .tc main_arg3) = m ((c : Thread nD τ).loc main_arg3) :=
  W5_arg m c main_arg3 (by decide) (by decide) (by decide) (W4_of_ne m c main_arg3 (by decide)) (W2_of_ne m c main_arg3 (by decide))
theorem W5_main_arg4 (c : Dev nD) : W5 m c (Proc.devRef .tc main_arg4) = m ((c : Thread nD τ).loc main_arg4) :=
  W5_arg m c main_arg4 (by decide) (by decide) (by decide) (W4_of_ne m c main_arg4 (by decide)) (W2_of_ne m c main_arg4 (by decide))

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev Lno : GSem nD τ sig → Finset Unit := fun _ => ∅
abbrev lvno : GSem nD τ sig → Unit → ℕ := fun _ _ => 0
abbrev Rside (c : Dev nD) : sProp 𝕄 := iprop((∃ r, prngReg c r) ∗ ∃ W, owes (c : Thread nD τ) (0 : CellTallies nD τ sig Unit) W)
abbrev Tat (W : Dev nD → Valuation τ sig (Elt F)) (c : Dev nD) : sProp 𝕄 := iprop(StableHlo.held (c : Thread nD τ) (Pipeline.ucRefs τ sig) (W c) ∗ Rside c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W5 m c) ∗ ∃ r, prngReg c r)

set_option backward.isDefEq.respectTransparency.types false in
def reg0 : Pipeline.RegionSeg (pcfgs (F := F)) adm (pdats m) () defs₀ 𝒱₀ Lno lvno 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ Lno lvno 0 fun _ _ => rfl
  pre := Tat (W1 m)
  post := Tat (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine (?_ : _ ⊢ Pipeline.ΦA spec0 c).trans (hin0 (V1 m) c)
    unfold Pipeline.ΦA
    iintro ⟨Hp, -, Hr⟩
    iframe Hr Hp
  hout c := by
    rw [Pipeline.ownSems0_none]
    refine (hout0 (V1 m) c).trans ?_
    unfold Pipeline.ΦA
    iintro ⟨Hr, Hp⟩
    iframe Hp Hr
    iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (fun w => (W2_arr m c w).symm)
      fun b hb => W2_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ Lno lvno 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ Lno lvno 1 fun _ _ => rfl
  pre := Tat (W3 m)
  post := Tat (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe Hr Hp
  hout c := by
    rw [Pipeline.ownSems0_none, show (pdats m 1 c).Φ (Fin.last _) = Pipeline.ΦA spec1 c from rfl]; unfold Pipeline.ΦA
    iintro ⟨Hr, Hp⟩
    iframe Hp Hr
    iempintro
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (fun w => (W4_arr m c w).symm)
      fun b hb => W4_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ Lno lvno) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ Lno lvno m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m)) (Tₙ := Tend m)
    (hch := ⟨fun _ => .rfl, fun _ => .rfl, fun _ => .rfl, fun _ => .rfl, fun _ => .rfl, fun c => by
      show Tat (W5 m) c ⊢ _
      iintro ⟨Hh, Hp, HO⟩
      isplitl [Hh Hp]
      · isplitl [Hh] <;> iassumption
      iexact HO⟩)
    (hinit := by
      refine Pipeline.initEach Lno lvno fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      iframe Hh HSI)
    (hQ := fun s h => h)

-- no item writes an argument array
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Frame

end
-- ==== Proof.Spec.lean ====
import Idealize.ShloMosaic.Lib.ValueIdx
import Idealize.ShloMosaic.PureOps.Ideal

noncomputable section

open scoped BigOperators

namespace Cert.Spec

open Idealize.ShloMosaic Idealize.ShloMosaic.ValueIdx

abbrev SBD : Shape := ⟨2, ![8192, 4096]⟩
abbrev SB : Shape := ⟨1, ![8192]⟩
abbrev SB2 : Shape := ⟨2, ![8192, 2]⟩
abbrev S2D : Shape := ⟨2, ![2, 4096]⟩

def label (j : Fin 2) : BitVec 32 := BitVec.ofNat 32 j.val

def wt (l : BitVec 32) (tgt : SB.Idx → BitVec 32) (b : Fin 8192) : EReal :=
  FloatOps.uitofp (F := Ideal) .f32 (IntOp.cmpi .eq (tgt (ix1 b)) l)

def wtArr (tgt : SB.Idx → BitVec 32) : SB2.Idx → EReal := fun i => wt (label (i 1)) tgt (i 0)

def c0 : EReal := Ideal.ofBits .f32 0xBF6B3F8E#32
def half : EReal := Ideal.ofBits .f32 0x3F000000#32
def mtwo : EReal := Ideal.ofBits .f32 0xC0000000#32
def two : EReal := Ideal.ofBits .f32 0x40000000#32

def cntM (M : SB2.Idx → EReal) (j : Fin 2) : EReal := ∑ b : Fin 8192, M (ix2 b j)
def vsumM (v : SB.Idx → EReal) (M : SB2.Idx → EReal) (j : Fin 2) : EReal := ∑ b : Fin 8192, v (ix1 b) * M (ix2 b j)
def colsumM (X : SBD.Idx → EReal) (M : SB2.Idx → EReal) (j : Fin 2) (d : Fin 4096) : EReal :=
  ∑ b : Fin 8192, X (ix2 b d) * M (ix2 b j)
def colsumArr (X : SBD.Idx → EReal) (M : SB2.Idx → EReal) : S2D.Idx → EReal := fun i => colsumM X M (i 0) (i 1)
def colmeanArr (X : SBD.Idx → EReal) (M : SB2.Idx → EReal) : S2D.Idx → EReal :=
  fun i => Ideal.div (colsumM X M (i 0) (i 1)) (cntM M (i 0))

def term (z mu ls : EReal) : EReal := (c0 - ls) - (half * ((z - mu) * (z - mu))) * Ideal.exp (mtwo * ls)
def term' (z mu ls : EReal) : EReal := (c0 - ls) - ((half * (z - mu)) * (z - mu)) * Ideal.exp (mtwo * ls)

def rowClass (Z : SBD.Idx → EReal) (MU LS : S2D.Idx → EReal) (j : Fin 2) (b : Fin 8192) : EReal :=
  ∑ d : Fin 4096, term (Z (ix2 b d)) (MU (ix2 j d)) (LS (ix2 j d))
def rowBlend (Z : SBD.Idx → EReal) (M : SB2.Idx → EReal) (MU LS : S2D.Idx → EReal) (b : Fin 8192) : EReal :=
  ∑ d : Fin 4096, term' (Z (ix2 b d))
    (M (ix2 b 0) * MU (ix2 0 d) + M (ix2 b 1) * MU (ix2 1 d))
    (M (ix2 b 0) * LS (ix2 0 d) + M (ix2 b 1) * LS (ix2 1 d))
def lpsumClass (Z : SBD.Idx → EReal) (M : SB2.Idx → EReal) (MU LS : S2D.Idx → EReal) (j : Fin 2) : EReal :=
  ∑ b : Fin 8192, rowClass Z MU LS j b * M (ix2 b j)
def lpsumBlend (Z : SBD.Idx → EReal) (M : SB2.Idx → EReal) (MU LS : S2D.Idx → EReal) (j : Fin 2) : EReal :=
  ∑ b : Fin 8192, rowBlend Z M MU LS b * M (ix2 b j)

section Results
variable (Z Mn Ls : SBD.Idx → EReal) (tgt : SB.Idx → BitVec 32) (ld : SB.Idx → EReal)

def resMu : S2D.Idx → EReal := colmeanArr Mn (wtArr tgt)
def resLs : S2D.Idx → EReal := colmeanArr Ls (wtArr tgt)
def resLp (j : Fin 2) : EReal :=
  Ideal.div (lpsumClass Z (wtArr tgt) (resMu Mn tgt) (resLs Ls tgt) j) (cntM (wtArr tgt) j)
def resLd (j : Fin 2) : EReal := Ideal.div (vsumM ld (wtArr tgt) j) (cntM (wtArr tgt) j)
def resTotal : EReal :=
  Ideal.div ((resLp Z Mn Ls tgt 0 + resLd tgt ld 0) + (resLp Z Mn Ls tgt 1 + resLd tgt ld 1)) two
end Results

/-- A weight is the indicator of "the row's label is l". -/
theorem wt_eq_ite (l : BitVec 32) (tgt : SB.Idx → BitVec 32) (b : Fin 8192) :
    wt l tgt b = if tgt (ix1 b) = l then 1 else 0 := by
  show (((BitVec.ofBool (tgt (ix1 b) == l)).toNat : ℝ) : EReal) = _
  by_cases h : tgt (ix1 b) = l <;> simp [h]

theorem term'_eq_term (z mu ls : EReal) : term' z mu ls = term z mu ls := by
  unfold term' term; rw [mul_assoc half]

/-- Outside class j both sides are x·0; inside it the weights are 1 at j and 0 at the other class, so the blend is s_j itself. -/
theorem lpsumBlend_eq (Z : SBD.Idx → EReal) (tgt : SB.Idx → BitVec 32) (MU LS : S2D.Idx → EReal) (j : Fin 2) :
    lpsumBlend Z (wtArr tgt) MU LS j = lpsumClass Z (wtArr tgt) MU LS j := by
  refine Finset.sum_congr rfl fun b _ => ?_
  have hw : ∀ k, wtArr tgt (ix2 b k) = if tgt (ix1 b) = label k then 1 else 0 := fun k => wt_eq_ite _ _ _
  by_cases h : tgt (ix1 b) = label j
  · refine congrArg (· * _) (Finset.sum_congr rfl fun d _ => ?_)
    rw [term'_eq_term, hw 0, hw 1, h]
    match j with
    | 0 => rw [if_pos rfl, if_neg (by decide), one_mul, one_mul, zero_mul, zero_mul, add_zero, add_zero]
    | 1 => rw [if_neg (by decide), if_pos rfl, one_mul, one_mul, zero_mul, zero_mul, zero_add, zero_add]
  · rw [hw j, if_neg h, mul_zero, mul_zero]

end Cert.Spec

end
-- ==== Proof.KI.HostVal.lean ====
import proofs.«156448_j71244917506189_1_alg».proof.Proof.Gen.KernelIdeal.Launch
import proofs.«156448_j71244917506189_1_alg».proof.Proof.Spec
import Idealize.ShloMosaic.Lib.StableHlo.Run
import Idealize.ShloMosaic.Lib.ValueIdx
import Idealize.ShloMosaic.Lib.ValueIdxRank1
import Idealize.ShloMosaic.Lib.Pipeline.Value
import Idealize.ShloMosaic.Lib.ValueLayout
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx Cert.Spec

variable (W : Valuation τ sig (Elt Ideal)) (j : Fin 2) (l : BitVec 32) (t : S8192.Idx → BitVec 32) (v u : S8192.Idx → EReal) (b : Fin 8192)

abbrev mask (l : BitVec 32) (t : S8192.Idx → BitVec 32) : S8192.Idx → EReal :=
  uitofp (F := Ideal) .f32 (cmpi .eq t (broadcastInDim S8192 ![] bcast_S_S8192 (constantI S_ 32 l)))

theorem mask_apply : mask l t (ix1 b) = wt l t b :=
  congrArg (fun c => FloatOps.uitofp (F := Ideal) .f32 (IntOp.cmpi .eq (t (ix1 b)) c))
    (broadcastInDim_apply _ bcast_S_S8192 (constantI S_ 32 l) (ix1 b) ix0 fun a => a.elim0)

theorem col_apply :
    broadcastInDim S8192x1 ![0] bcast_S8192_S8192x1_0 u (ix2 (n0 := 8192) (n1 := 1) b 0) = u (ix1 b) :=
  broadcastInDim_apply _ bcast_S8192_S8192x1_0 u _ (ix1 b) (fun a => match a with
    | ⟨0, _⟩ => by show b.val = if (8192 : Nat) = 1 then 0 else b.val; rw [if_neg (by decide)])

-- Two row vectors set side by side: column k of the rows × 2 array is the k-th vector.
theorem stackCols_apply (u : Fin 2 → S8192.Idx → EReal) (b : Fin 8192) (k : Fin 2) :
    concatenate S8192x2 1 [⟨S8192x1, broadcastInDim S8192x1 ![0] bcast_S8192_S8192x1_0 (u 0)⟩,
      ⟨S8192x1, broadcastInDim S8192x1 ![0] bcast_S8192_S8192x1_0 (u 1)⟩] concatenates_S8192x1_S8192x1_S8192x2_d1
      (ix2 b k) = u k (ix1 b) :=
  match k with
  | ⟨0, _⟩ => (concatenate_pair_apply_left (1 : Fin S8192x2.rank) _ _ concatenates_S8192x1_S8192x1_S8192x2_d1 _ rfl
      (ix2 (n0 := 8192) (n1 := 1) b 0) (fun a => match a with | ⟨0, _⟩ => rfl | ⟨1, _⟩ => rfl)).trans (col_apply _ b)
  | ⟨1, _⟩ => (concatenate_pair_apply_right (1 : Fin S8192x2.rank) _ _ concatenates_S8192x1_S8192x1_S8192x2_d1 _ rfl rfl
      (ix2 (n0 := 8192) (n1 := 1) b 0) (fun a ha => match a, ha with | ⟨0, _⟩, _ => rfl | ⟨1, _⟩, ha => absurd rfl ha) rfl).trans (col_apply _ b)

theorem sum_apply {n : Nat} (hr : (⟨1, ![n]⟩ : Shape).ReducesTo [0] S_) (x : (⟨1, ![n]⟩ : Shape).Idx → EReal) (i : S_.Idx) :
    Host.reduceAdd (F := Ideal) (φ := .f32) x (constant (F := Ideal) S_ .f32 0x00000000#32) hr h_S_ i = ∑ a : Fin n, x (ix1 a) := by
  simp only [Host.reduceAdd, Ideal.hostReduceAdd_def]
  rw [Ideal.hostReduceAdd_total hr (fun b => b.elim0) x _ i]
  show Ideal.ofBits .f32 0x00000000#32 + _ = _
  rw [Ideal.ofBits_zero_f32, zero_add]
  exact (Equiv.sum_comp idxEquiv1.symm x).symm

theorem div_apply {s : Shape} (a b : s.Idx → EReal) (i : s.Idx) :
    Host.divf (F := Ideal) (φ := .f32) a b i = Ideal.div (a i) (b i) := rfl

theorem sum_mask : ∑ b : Fin 8192, mask (label j) t (ix1 b) = cntM (wtArr t) j :=
  Finset.sum_congr rfl fun b _ => mask_apply _ t b

theorem sum_mul_mask :
    ∑ b : Fin 8192, mulf (F := Ideal) (φ := .f32) v (mask (label j) t) (ix1 b) = vsumM v (wtArr t) j :=
  Finset.sum_congr rfl fun b _ => congrArg (v (ix1 b) * ·) (mask_apply _ t b)

theorem ld_apply (i : S_.Idx) :
    Host.divf (F := Ideal) (φ := .f32)
      (Host.reduceAdd (F := Ideal) (φ := .f32) (mulf (F := Ideal) (φ := .f32) v (mask (label j) t)) (constant (F := Ideal) S_ .f32 0x00000000#32) reducesTo_S8192_S_d0 h_S_)
      (Host.reduceAdd (F := Ideal) (φ := .f32) (mask (label j) t) (constant (F := Ideal) S_ .f32 0x00000000#32) reducesTo_S8192_S_d0 h_S_) i
      = resLd t v j := by
  refine (div_apply _ _ i).trans ?_
  rw [sum_apply, sum_apply]
  exact congrArg₂ Ideal.div (sum_mul_mask j t v) (sum_mask j t)

theorem host0_v8 :
    StableHlo.after (hostOps0 (F := Ideal)) W (Proc.devRef .tc main_v8) = wtArr (W (Proc.devRef .tc main_arg3)) := by
  after_results
  generalize W (Proc.devRef .tc main_arg3) = t
  funext i
  obtain ⟨b, k, rfl⟩ : ∃ (b : Fin 8192) (k : Fin 2), i = ix2 b k := ⟨i 0, i 1, eq_ix2 i⟩
  refine (stackCols_apply (fun k => mask (label k) t) b k).trans (mask_apply _ t b)

theorem host0_v9 :
    StableHlo.after (hostOps0 (F := Ideal)) W (Proc.devRef .tc main_v9) = fun _ => cntM (wtArr (W (Proc.devRef .tc main_arg3))) 0 := by
  after_results
  exact funext fun i => (sum_apply _ _ i).trans (sum_mask 0 _)

theorem host0_v10 :
    StableHlo.after (hostOps0 (F := Ideal)) W (Proc.devRef .tc main_v10) = fun _ => cntM (wtArr (W (Proc.devRef .tc main_arg3))) 1 := by
  after_results
  exact funext fun i => (sum_apply _ _ i).trans (sum_mask 1 _)

theorem host0_v13 :
    StableHlo.after (hostOps0 (F := Ideal)) W (Proc.devRef .tc main_v13)
      = fun _ => resLd (W (Proc.devRef .tc main_arg3)) (W (Proc.devRef .tc main_arg4)) 0 := by
  after_results
  exact funext fun i => ld_apply 0 _ _ i

theorem host0_v16 :
    StableHlo.after (hostOps0 (F := Ideal)) W (Proc.devRef .tc main_v16)
      = fun _ => resLd (W (Proc.devRef .tc main_arg3)) (W (Proc.devRef .tc main_arg4)) 1 := by
  after_results
  exact funext fun i => ld_apply 1 _ _ i

-- Two scalars holding c 0 and c 1, stacked into a vector of two: entry k is c k.
theorem stack2_apply (a b : S_.Idx → EReal) (c : Fin 2 → EReal) (ha : ∀ z, a z = c 0) (hb : ∀ z, b z = c 1) (i : S2.Idx) :
    concatenate S2 0 [⟨S1, broadcastInDim S1 ![] bcast_S_S1 a⟩, ⟨S1, broadcastInDim S1 ![] bcast_S_S1 b⟩]
      concatenates_S1_S1_S2_d0 i = c (i 0) := by
  obtain rfl : a = fun _ => c 0 := funext ha
  obtain rfl : b = fun _ => c 1 := funext hb
  obtain ⟨k, rfl⟩ : ∃ k : Fin 2, i = ix1 k := ⟨i 0, eq_ix1 i⟩
  match k with
  | ⟨0, _⟩ =>
    exact concatenate_pair_apply_left (0 : Fin S2.rank) _ _ concatenates_S1_S1_S2_d0 _ rfl (ix1 (0 : Fin 1))
      (fun b => match b with | ⟨0, _⟩ => rfl)
  | ⟨1, _⟩ =>
    exact concatenate_pair_apply_right (0 : Fin S2.rank) _ _ concatenates_S1_S1_S2_d0 _ rfl rfl (ix1 (0 : Fin 1))
      (fun b hb => match b, hb with | ⟨0, _⟩, hb => absurd rfl hb) rfl

theorem bcast_rows_apply (v : S2.Idx → EReal) (i : S2x4096.Idx) :
    broadcastInDim S2x4096 ![0, 1] bcast_S2x1_S2x4096_0_1 (broadcastInDim S2x1 ![0] bcast_S2_S2x1_0 v) i = v (ix1 (i 0)) := by
  refine (broadcastInDim_apply _ bcast_S2x1_S2x4096_0_1 _ i (ix2 (n0 := 2) (n1 := 1) (i 0) 0) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl])).trans ?_
  exact broadcastInDim_apply _ bcast_S2_S2x1_0 v _ (ix1 (i 0)) (fun a => match a with
    | ⟨0, _⟩ => by show (i 0).val = if (2 : Nat) = 1 then 0 else (i 0).val; rw [if_neg (by decide)])

-- A classes × columns array divided by the class sizes broadcast along the columns.
theorem div_counts_apply (A : S2x4096.Idx → EReal) (c : Fin 2 → EReal) (i : S2x4096.Idx) :
    Host.divf (F := Ideal) (φ := .f32) A (broadcastInDim S2x4096 ![0, 1] bcast_S2x1_S2x4096_0_1 (broadcastInDim S2x1 ![0] bcast_S2_S2x1_0
      (concatenate S2 0 [⟨S1, broadcastInDim S1 ![] bcast_S_S1 (fun _ : S_.Idx => c 0)⟩,
        ⟨S1, broadcastInDim S1 ![] bcast_S_S1 (fun _ : S_.Idx => c 1)⟩] concatenates_S1_S1_S2_d0))) i
      = Ideal.div (A i) (c (i 0)) :=
  congrArg (Ideal.div (A i)) ((bcast_rows_apply _ i).trans (stack2_apply _ _ c (fun _ => rfl) (fun _ => rfl) _))

theorem host1_v23 (X : SBD.Idx → EReal) (M : SB2.Idx → EReal)
    (hS : W (Proc.devRef .tc main_v17_0) = colsumArr X M)
    (h9 : W (Proc.devRef .tc main_v9) = fun _ => cntM M 0) (h10 : W (Proc.devRef .tc main_v10) = fun _ => cntM M 1) :
    StableHlo.after (hostOps1 (F := Ideal)) W (Proc.devRef .tc main_v23) = colmeanArr X M := by
  after_results
  rw [hS, h9, h10]
  exact funext (div_counts_apply (colsumArr X M) (cntM M))

theorem host1_v25 (X : SBD.Idx → EReal) (M : SB2.Idx → EReal)
    (hS : W (Proc.devRef .tc main_v17_1) = colsumArr X M)
    (h9 : W (Proc.devRef .tc main_v9) = fun _ => cntM M 0) (h10 : W (Proc.devRef .tc main_v10) = fun _ => cntM M 1) :
    StableHlo.after (hostOps1 (F := Ideal)) W (Proc.devRef .tc main_v25) = colmeanArr X M := by
  after_results
  rw [hS, h9, h10]
  exact funext (div_counts_apply (colsumArr X M) (cntM M))

-- Entry (0, k) of a 1 × 2 array, cut out and read as a scalar.
theorem entry_apply (k : Fin 2) (st : Fin 2 → Nat) (hst : st = ![0, k.val]) (A : S1x2.Idx → EReal) (sl) (z : S_.Idx) :
    shapeCast S_ (extractStridedSlice S1x1 st A sl) shapeCasts_S1x1_S_ z = A (ix2 (0 : Fin 1) k) := by
  subst hst
  refine (shapeCast_apply _ shapeCasts_S1x1_S_ z (ix2 (0 : Fin 1) (0 : Fin 1)) rfl).trans ?_
  exact extractStridedSlice_apply _ A sl _ (ix2 (0 : Fin 1) k)
    (fun a => match a with | ⟨0, _⟩ => rfl | ⟨1, _⟩ => by show k.val = k.val + 1 * 0; omega)

-- The two weighted density sums, cut out of the 1 × 2 array, divided by the class sizes and stacked.
theorem lp_apply (L : Fin 2 → EReal) (M : SB2.Idx → EReal) (a b : S_.Idx → EReal)
    (ha : ∀ z, a z = L 0) (hb : ∀ z, b z = L 1) (i : S2.Idx) :
    concatenate S2 0 [⟨S1, broadcastInDim S1 ![] bcast_S_S1 (Host.divf (F := Ideal) (φ := .f32) a fun _ => cntM M 0)⟩,
      ⟨S1, broadcastInDim S1 ![] bcast_S_S1 (Host.divf (F := Ideal) (φ := .f32) b fun _ => cntM M 1)⟩]
      concatenates_S1_S1_S2_d0 i = Ideal.div (L (i 0)) (cntM M (i 0)) :=
  stack2_apply _ _ (fun k => Ideal.div (L k) (cntM M k)) (fun z => congrArg (Ideal.div · (cntM M 0)) (ha z))
    (fun z => congrArg (Ideal.div · (cntM M 1)) (hb z)) i

theorem host2_v35 (L : Fin 2 → EReal) (M : SB2.Idx → EReal)
    (h26 : W (Proc.devRef .tc main_v26) = fun i : S1x2.Idx => L (i 1))
    (h9 : W (Proc.devRef .tc main_v9) = fun _ => cntM M 0) (h10 : W (Proc.devRef .tc main_v10) = fun _ => cntM M 1) :
    StableHlo.after (hostOps2 (F := Ideal)) W (Proc.devRef .tc main_v35) = fun i : S2.Idx => Ideal.div (L (i 0)) (cntM M (i 0)) := by
  after_results
  rw [h26, h9, h10]
  exact funext (lp_apply L M _ _ (entry_apply 0 _ rfl _ _) (entry_apply 1 _ rfl _ _))

theorem host2_v41 (L : Fin 2 → EReal) (M : SB2.Idx → EReal) (d0 d1 : EReal)
    (h26 : W (Proc.devRef .tc main_v26) = fun i : S1x2.Idx => L (i 1))
    (h9 : W (Proc.devRef .tc main_v9) = fun _ => cntM M 0) (h10 : W (Proc.devRef .tc main_v10) = fun _ => cntM M 1)
    (h13 : W (Proc.devRef .tc main_v13) = fun _ => d0) (h16 : W (Proc.devRef .tc main_v16) = fun _ => d1) :
    StableHlo.after (hostOps2 (F := Ideal)) W (Proc.devRef .tc main_v41)
      = fun _ => Ideal.div ((Ideal.div (L 0) (cntM M 0) + d0) + (Ideal.div (L 1) (cntM M 1) + d1)) two := by
  after_results
  rw [h26, h9, h10, h13, h16]
  funext i
  refine (congrArg (Ideal.div · two) ((sum_apply _ _ _).trans (Fin.sum_univ_two _))).trans ?_
  have hA := lp_apply L M _ _ (entry_apply 0 _ rfl (fun i : S1x2.Idx => L (i 1)) slices_S1x2_S1x1_0_0)
    (entry_apply 1 _ rfl (fun i : S1x2.Idx => L (i 1)) slices_S1x2_S1x1_0_1)
  have hB := stack2_apply (fun _ => d0) (fun _ => d1) ![d0, d1] (fun _ => rfl) (fun _ => rfl)
  exact congrArg (Ideal.div · two) (congrArg₂ (· + ·)
    (congrArg₂ (· + ·) (hA _) (hB _)) (congrArg₂ (· + ·) (hA _) (hB _)))

end Cert.KernelIdeal.HostVal

end
-- ==== Proof.KI.R0Pay.lean ====
import proofs.«156448_j71244917506189_1_alg».proof.Proof.Gen.KernelIdeal.Skeleton
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

noncomputable section

open scoped BigOperators

namespace Cert.KernelIdeal.Value0

open Cert.KernelIdeal Cert.KernelIdeal.Gen
open Idealize.ShloMosaic Idealize.ShloMosaic.ValueIdx

theorem colSum_apply (v : FVec Ideal S1024x512 .f32) (h : S1024x512.Reduces [0] S512)
    (hφ : FKind.Formats .f32) (hacc : (0x00000000#32 : BitVec 32) = 0x00000000#32) (dd : Fin 512) :
    multiReduction .add [0] S512 v 0x00000000#32 h hφ hacc (ix1 dd) = ∑ r : Fin 1024, v (ix2 r dd) := by
  refine (Ideal.multiReduction_add_single v 0x00000000#32 h hφ hacc (ix1 dd)).trans ?_
  refine Finset.sum_congr rfl fun r _ => congrArg v ?_
  funext a
  match a with
  | ⟨0, _⟩ => exact Fin.ext rfl
  | ⟨1, _⟩ => exact Fin.ext rfl

theorem spread_apply (vm : FVec Ideal S1024x1 .f32) (hb : S1024x1.Broadcasts S1024x512) (r : Fin 1024) (dd : Fin 512) :
    broadcastTo S1024x512 vm hb (ix2 r dd) = vm (ix2 r (0 : Fin 1)) :=
  broadcastTo_apply vm hb (ix2 r dd) (ix2 r (0 : Fin 1)) fun a => by
    match a with
    | ⟨0, _⟩ => rfl
    | ⟨1, _⟩ => rfl

theorem asRow_apply (v : FVec Ideal S512 .f32) (hs : S512.ShapeCasts S1x512) (dd : Fin 512) :
    shapeCast S1x512 v hs (ix2 (0 : Fin 1) dd) = v (ix1 dd) := by
  refine (shapeCast_addUnit_apply ![512] v hs (ix2 (0 : Fin 1) dd)).trans (congrArg v ?_)
  funext a
  match a with
  | ⟨0, _⟩ => rfl

-- One class's share at a point, as a 1 x 512 row: at column dd, the sum down the block's rows r of x(r, dd) * m(r).
theorem wsum_apply (vx : FVec Ideal S1024x512 .f32) (vm : FVec Ideal S1024x1 .f32)
    (hc : S1024x1.ShapeCasts S1024x1) (hb : S1024x1.Broadcasts S1024x512) (hr : S1024x512.Reduces [0] S512)
    (hφ : FKind.Formats .f32) (hacc : (0x00000000#32 : BitVec 32) = 0x00000000#32) (hs : S512.ShapeCasts S1x512)
    (dd : Fin 512) :
    shapeCast S1x512 (multiReduction .add [0] S512 (mulf vx (broadcastTo S1024x512 (shapeCast S1024x1 vm hc) hb))
        0x00000000#32 hr hφ hacc) hs (ix2 (0 : Fin 1) dd)
      = ∑ r : Fin 1024, vx (ix2 r dd) * vm (ix2 r (0 : Fin 1)) := by
  refine (asRow_apply _ hs dd).trans ((colSum_apply _ hr hφ hacc dd).trans (Finset.sum_congr rfl fun r _ => ?_))
  show vx (ix2 r dd) * broadcastTo S1024x512 (shapeCast S1024x1 vm hc) hb (ix2 r dd) = _
  rw [spread_apply, shapeCast_self]

-- The row stored for a class: the row held before plus that class's share.
theorem pay10_apply (v3 : Vec Ideal S1024x1 .f32) (v7 : Vec Ideal S1024x512 .f32) (v25 : Vec Ideal S1x512 .f32)
    (dd : Fin 512) :
    k0_pay10 (F := Ideal) v3 v7 v25 (ix2 (0 : Fin 1) dd)
      = v25 (ix2 (0 : Fin 1) dd) + ∑ r : Fin 1024, v7 (ix2 r dd) * v3 (ix2 r (0 : Fin 1)) := by
  unfold k0_pay10 k0_pay6
  refine (congrFun (shapeCast_self _ _) (ix2 (0 : Fin 1) dd)).trans ?_
  exact congrArg (fun z => v25 (ix2 (0 : Fin 1) dd) + z) (wsum_apply v7 v3 _ _ _ _ _ _ dd)

theorem pay4_apply (y : S2x512.Idx) : k0_pay4 (F := Ideal) y = 0 := by
  unfold k0_pay4
  exact (congrFun (shapeCast_self _ _) y).trans Ideal.ofBits_zero_f32

-- The weighted column sums of one block: entry (j, dd) is the sum over the block's rows r of x(r, dd) * m(r, j).
def blockSum (x : Vec Ideal S1024x512 .f32) (m : Vec Ideal S1024x2 .f32) : Vec Ideal S2x512 .f32 :=
  fun y => ∑ r : Fin 1024, x (ix2 r (y 1)) * m (ix2 r (y 0))

abbrev rowN (s : ℕ) (r : Fin 1024) : Fin 8192 := ⟨(1024 * s + r.val) % 8192, Nat.mod_lt _ (by norm_num)⟩

-- The 8192 rows are 8 blocks of 1024 rows.
theorem sum_rows {M : Type*} [AddCommMonoid M] (x : Fin 8192 → M) :
    ∑ b : Fin 8192, x b = ∑ s ∈ Finset.range 8, ∑ r : Fin 1024, x (rowN s r) := by
  rw [← Equiv.sum_comp (finProdFinEquiv.trans (finCongr (by norm_num : 8 * 1024 = 8192))) x, Fintype.sum_prod_type,
    Finset.sum_range]
  refine Finset.sum_congr rfl fun k _ => Finset.sum_congr rfl fun r _ => congrArg x (Fin.ext ?_)
  have := k.isLt
  have := r.isLt
  show r.val + 1024 * k.val = (1024 * k.val + r.val) % 8192
  omega

end Cert.KernelIdeal.Value0

end
-- ==== Proof.KI.R0Pieces.lean ====
import proofs.«156448_j71244917506189_1_alg».proof.Proof.KI.R0Frame
import proofs.«156448_j71244917506189_1_alg».proof.Proof.KI.R0Pay
import Idealize.ShloMosaic.Lib.Pipeline.Value
import Idealize.ShloMosaic.Lib.ValueIdx
import Idealize.ShloMosaic.Lib.Tactic

noncomputable section

open scoped BigOperators

namespace Cert.KernelIdeal.Value0

open Cert.KernelIdeal Cert.KernelIdeal.Gen Cert.KernelIdeal.Frame
open Idealize.ShloMosaic Idealize.ShloMosaic.TcCoe Idealize.ShloMosaic.ValueIdx Idealize.ShloMosaic.Tactic
open Idealize.SL Idealize.SL.Sem

abbrev Pc := View.Piece (Elt Ideal) S2x512 .f32
abbrev row0 : Rect S2x512 := Rect.unit (s := S2x512) ![0, 0] S1x512.size inb_S2x512_S1x512_0_0
abbrev row1 : Rect S2x512 := Rect.unit (s := S2x512) ![1, 0] S1x512.size inb_S2x512_S1x512_1_0
abbrev allRows : Rect S2x512 := Rect.unit (s := S2x512) ![0, 0] S2x512.size inb_S2x512_S2x512_0_0

theorem hz2 : (![0, 0] : Fin 2 → Nat) = fun _ => 0 := funext fun a => by fin_cases a <;> rfl

-- Entry dd of row o of a 2 x 512 block is the block's entry (o, dd).
theorem row_idx (o : ℕ) (ho : o < 2) (inb : ∀ a, (![o, 0] : Fin 2 → Nat) a + S1x512.size a ≤ S2x512.size a) (dd : Fin 512) :
    (Rect.unit (s := S2x512) ![o, 0] S1x512.size inb).idx (ix2 (0 : Fin 1) dd) = ix2 (⟨o, ho⟩ : Fin 2) dd := by
  funext a
  match a with
  | ⟨0, _⟩ => exact Fin.ext (by show o + 1 * 0 = o; omega)
  | ⟨1, _⟩ => exact Fin.ext (by show 0 + 1 * dd.val = dd.val; omega)

-- Entry r of column o of the 1024 x 2 weights block is the block's entry (r, o).
theorem col_idx (o : ℕ) (ho : o < 2) (inb : ∀ a, (![0, o] : Fin 2 → Nat) a + S1024x1.size a ≤ S1024x2.size a) (r : Fin 1024) :
    (Rect.unit (s := S1024x2) ![0, o] S1024x1.size inb).idx (ix2 r (0 : Fin 1)) = ix2 r (⟨o, ho⟩ : Fin 2) := by
  funext a
  match a with
  | ⟨0, _⟩ => exact Fin.ext (by show 0 + 1 * r.val = r.val; omega)
  | ⟨1, _⟩ => exact Fin.ext (by show o + 1 * 0 = o; omega)

theorem rows_disjoint : Disjoint row0.set row1.set := Rect.unit_disjoint (0 : Fin S2x512.rank) (Or.inl (by decide))

-- Row 1 stored last and row 0 before it: entry (0, dd) is the stored row 0, which row 1's store does not reach.
theorem canon_rows_zero (P1 P0 : Vec Ideal S1x512 .f32) (L : List Pc) (dd : Fin 512) :
    View.canon ((⟨row1, P1⟩ : Pc) :: ⟨row0, P0⟩ :: L) (ix2 (0 : Fin 2) dd) = P0 (ix2 (0 : Fin 1) dd) :=
  (congrArg (View.canon ((⟨row1, P1⟩ : Pc) :: ⟨row0, P0⟩ :: L)) (row_idx 0 (by decide) _ dd).symm).trans
    ((View.canon_cons_of_not_mem (⟨row1, P1⟩ : Pc) (⟨row0, P0⟩ :: L)
      (Finset.disjoint_left.mp rows_disjoint (row0.idx_mem (ix2 (0 : Fin 1) dd)))).trans
      (View.canon_cons_emb row0 P0 L (ix2 (0 : Fin 1) dd)))

theorem canon_rows_one (P1 : Vec Ideal S1x512 .f32) (L : List Pc) (dd : Fin 512) :
    View.canon ((⟨row1, P1⟩ : Pc) :: L) (ix2 (1 : Fin 2) dd) = P1 (ix2 (0 : Fin 1) dd) :=
  (congrArg (View.canon ((⟨row1, P1⟩ : Pc) :: L)) (row_idx 1 (by decide) _ dd).symm).trans
    (View.canon_cons_emb row1 P1 L (ix2 (0 : Fin 1) dd))

-- A load after one store of the whole block reads that store's payload.
theorem clear_row (v : View sig .tc .vmem S2x512 .f32) (w : Vec Ideal S2x512 .f32) (r : Rect S2x512) :
    v.readCov [(⟨allRows, w⟩ : Pc)] r.toLoadRect = fun j => w (r.idx j) :=
  (View.readCov_eq_canon' v _ _).trans (funext fun j => congrFun (View.canon_unit_zero hz2 _ w) _)

-- So does a load of row 1 after a further store of row 0, which does not reach it.
theorem clear_row1 (v : View sig .tc .vmem S2x512 .f32) (w : Vec Ideal S2x512 .f32) (P0 : Vec Ideal S1x512 .f32) :
    v.readCov [(⟨row0, P0⟩ : Pc), ⟨allRows, w⟩] row1.toLoadRect = fun j => w (row1.idx j) :=
  (View.readCov_cons_of_disjoint v (⟨row0, P0⟩ : Pc) _ _ rows_disjoint).trans (clear_row v w row1)

-- A load of the whole block after any stores reads what the stores left.
theorem readCov_rows (v : View sig .tc .vmem S2x512 .f32) (L : List Pc) : v.readCov L allRows.toLoadRect = View.canon L :=
  (View.readCov_eq_canon' v L _).trans (View.ld_unit_zero hz2 _ (View.canon L))

-- The row stored for class o over a loaded row v.
abbrev stored (x : Vec Ideal S1024x512 .f32) (x2 : Vec Ideal S1024x2 .f32) (o : ℕ)
    (inb : ∀ a, (![0, o] : Fin 2 → Nat) a + S1024x1.size a ≤ S1024x2.size a) (v : Vec Ideal S1x512 .f32) : Vec Ideal S1x512 .f32 :=
  k0_pay10 (F := Ideal) (View.ld x2 (Rect.unit (s := S1024x2) ![0, o] S1024x1.size inb))
    (View.ld x (Rect.unit (s := S1024x512) ![0, 0] S1024x512.size inb_S1024x512_S1024x512_0_0)) v

-- Where v reads row o of `acc`, it is `acc` plus the block's weighted column sum, at every column dd.
theorem stored_apply (x : Vec Ideal S1024x512 .f32) (x2 : Vec Ideal S1024x2 .f32) (v : Vec Ideal S1x512 .f32) (acc : Vec Ideal S2x512 .f32)
    (o : ℕ) (ho : o < 2) (inb : ∀ a, (![0, o] : Fin 2 → Nat) a + S1024x1.size a ≤ S1024x2.size a) (dd : Fin 512)
    (hv : v (ix2 (0 : Fin 1) dd) = acc (ix2 (⟨o, ho⟩ : Fin 2) dd)) :
    stored x x2 o inb v (ix2 (0 : Fin 1) dd) = acc (ix2 (⟨o, ho⟩ : Fin 2) dd) + blockSum x x2 (ix2 (⟨o, ho⟩ : Fin 2) dd) := by
  refine (pay10_apply _ _ _ dd).trans ?_
  rw [View.ld_unit_zero hz2, hv]
  exact congrArg (fun z => acc (ix2 (⟨o, ho⟩ : Fin 2) dd) + z)
    (Finset.sum_congr rfl fun r _ => congrArg (fun z => x (ix2 r dd) * z) (congrArg x2 (col_idx o ho inb r)))

-- Both rows stored over loads that read `acc`: the accumulator ends at `acc` plus the block sum.
theorem acc_core (x : Vec Ideal S1024x512 .f32) (x2 : Vec Ideal S1024x2 .f32) (acc : Vec Ideal S2x512 .f32)
    (a0 a1 : Vec Ideal S1x512 .f32) (L : List Pc)
    (ha0 : ∀ dd : Fin 512, a0 (ix2 (0 : Fin 1) dd) = acc (ix2 (0 : Fin 2) dd))
    (ha1 : ∀ dd : Fin 512, a1 (ix2 (0 : Fin 1) dd) = acc (ix2 (1 : Fin 2) dd)) :
    View.canon ((⟨row1, stored x x2 1 inb_S1024x2_S1024x1_0_1 a1⟩ : Pc) :: ⟨row0, stored x x2 0 inb_S1024x2_S1024x1_0_0 a0⟩ :: L)
      = fun y => acc y + blockSum x x2 y := by
  funext y
  obtain ⟨j, dd, rfl⟩ : ∃ (j : Fin 2) (dd : Fin 512), y = ix2 j dd := ⟨y 0, y 1, eq_ix2 y⟩
  match j with
  | ⟨0, _⟩ =>
    exact (canon_rows_zero _ _ L dd).trans (stored_apply x x2 a0 acc 0 _ _ dd (ha0 dd))
  | ⟨1, _⟩ =>
    exact (canon_rows_one _ _ dd).trans (stored_apply x x2 a1 acc 1 _ _ dd (ha1 dd))

-- The same over loads of an accumulator held at `xs`.
theorem acc_ld (x : Vec Ideal S1024x512 .f32) (x2 : Vec Ideal S1024x2 .f32) (xs : Vec Ideal S2x512 .f32) :
    View.canon [(⟨row1, stored x x2 1 inb_S1024x2_S1024x1_0_1 (View.ld xs row1)⟩ : Pc),
        ⟨row0, stored x x2 0 inb_S1024x2_S1024x1_0_0 (View.ld xs row0)⟩]
      = fun y => xs y + blockSum x x2 y :=
  acc_core x x2 xs _ _ [] (fun dd => congrArg xs (row_idx 0 (by decide) _ dd)) (fun dd => congrArg xs (row_idx 1 (by decide) _ dd))

variable (V : (c : Dev nD) → (b : Ref sig .tc) → Buf (Elt Ideal) ((c : Thread nD τ).loc b)) (c : Dev nD) (t : Fin cfg0.N)

-- A point that clears first: each accumulator ends at 0 plus its matrix's block sum.
theorem pt_A (h0 : t.val % 8 = 0) (h1 : ¬t.val % 8 = 7) :
    (pt0_A V c t h0 h1).2.2 = (fun y => 0 + blockSum (iblk0 V c 0 t) (iblk0 V c 2 t) y,
      fun y => 0 + blockSum (iblk0 V c 1 t) (iblk0 V c 2 t) y) := by
  refine Prod.ext ?_ ?_ <;>
  · simp only [pt0_A, run0_A, View.read_writes_junk_eq_canon, kernelRun0_A]
    sl_unfold_words
    simp only [View.readAt_eq_ld, (hs0_0 t).read_unread, (hs0_1 t).read_unread, (hs0_2 t).read_unread]
    exact acc_core _ _ (fun _ => 0) _ _ _ (fun dd => (congrFun (clear_row _ _ row0) _).trans (pay4_apply _))
      (fun dd => (congrFun (clear_row1 _ _ _) _).trans (pay4_apply _))

-- Any other point: each accumulator ends at what it held plus its matrix's block sum.
theorem pt_B (h0 : ¬t.val % 8 = 0) (h1 : ¬t.val % 8 = 7) (xs0 xs1 : Vec Ideal S2x512 .f32) :
    (pt0_B V c t h0 h1 xs0 xs1).2.2 = (fun y => xs0 y + blockSum (iblk0 V c 0 t) (iblk0 V c 2 t) y,
      fun y => xs1 y + blockSum (iblk0 V c 1 t) (iblk0 V c 2 t) y) := by
  refine Prod.ext ?_ ?_ <;>
  · simp only [pt0_B, run0_B, View.read_writes_junk_eq_canon, kernelRun0_B]
    sl_unfold_words
    simp only [View.readAt_eq_ld, (hs0_0 t).read_unread, (hs0_1 t).read_unread, (hs0_2 t).read_unread,
      (Memref.isWhole_whole cc0_scratch0).read_unread, (Memref.isWhole_whole cc0_scratch1).read_unread]
    exact acc_ld _ _ _

-- A point that also copies out: each output block holds its accumulator as the point leaves it.
theorem pt_C (h0 : ¬t.val % 8 = 0) (h1 : t.val % 8 = 7) (xs0 xs1 : Vec Ideal S2x512 .f32) :
    pt0_C V c t h0 h1 xs0 xs1 = (fun y => xs0 y + blockSum (iblk0 V c 0 t) (iblk0 V c 2 t) y,
      fun y => xs1 y + blockSum (iblk0 V c 1 t) (iblk0 V c 2 t) y,
      fun y => xs0 y + blockSum (iblk0 V c 0 t) (iblk0 V c 2 t) y,
      fun y => xs1 y + blockSum (iblk0 V c 1 t) (iblk0 V c 2 t) y) := by
  refine Prod.ext ?_ (Prod.ext ?_ (Prod.ext ?_ ?_)) <;>
  · simp only [pt0_C, run0_C, View.read_writes_junk_eq_canon, kernelRun0_C]
    sl_unfold_words
    simp only [View.readAt_eq_ld, (hs0_0 t).read_unread, (hs0_1 t).read_unread, (hs0_2 t).read_unread,
      (Memref.isWhole_whole cc0_scratch0).read_unread, (Memref.isWhole_whole cc0_scratch1).read_unread,
      View.canon_unit_zero (S := S2x512) hz2, readCov_rows scM0_0.view, readCov_rows scM0_1.view]
    exact acc_ld _ _ _

end Cert.KernelIdeal.Value0

end
-- ==== Proof.KI.R0Value.lean ====
import proofs.«156448_j71244917506189_1_alg».proof.Proof.KI.R0Frame
import proofs.«156448_j71244917506189_1_alg».proof.Proof.KI.R0Pay
import proofs.«156448_j71244917506189_1_alg».proof.Proof.KI.R0Pieces
import proofs.«156448_j71244917506189_1_alg».proof.Proof.Spec
import Idealize.ShloMosaic.Lib.Pipeline.Value
import Idealize.ShloMosaic.Lib.ValueIdx

noncomputable section

open scoped BigOperators

namespace Cert.KernelIdeal.Value0

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev colN (q : ℕ) (dd : Fin 512) : Fin 4096 := ⟨(512 * q + dd.val) % 4096, Nat.mod_lt _ (by norm_num)⟩

-- What batch block s adds to feature block q of the weighted column sums: at (j, dd) the sum over the block's rows.
def part (X : Cert.Spec.SBD.Idx → EReal) (M : Cert.Spec.SB2.Idx → EReal) (q s : ℕ) : S2x512.Idx → EReal :=
  fun y => ∑ r : Fin 1024, X (ix2 (rowN s r) (colN q (y 1))) * M (ix2 (rowN s r) (y 0))

-- Point t = 8 q + s has batch block s and feature block q: the matrices' blocks are (s, q), the weights' (s, 0), the outputs' (0, q).
theorem idx_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = t.val % 8 ∧ win0_2.index t (1 : Fin 2) = 0
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

theorem xblk0_apply (c : Dev nD) (t : Fin cfg0.N) (r : Fin 1024) (dd : Fin 512) :
    iblk0 V c 0 t (ix2 r dd) = V c main_arg1 (ix2 (rowN (t.val % 8) r) (colN (t.val / 8) dd)) := by
  obtain ⟨e0, e1, -⟩ := idx_facts t
  have hN : cfg0.N = 64 := N_0
  refine congrArg (V c main_arg1) (?_ : ((cfg0.win 0).blk t).view.emb (ix2 r dd) = _)
  funext a; apply Fin.ext
  match a with
  | ⟨0, _⟩ =>
    show win0_0.index t (0 : Fin 2) * 1024 + 1 * r.val = (1024 * (t.val % 8) + r.val) % 8192
    omega
  | ⟨1, _⟩ =>
    show win0_0.index t (1 : Fin 2) * 512 + 1 * dd.val = (512 * (t.val / 8) + dd.val) % 4096
    omega

theorem xblk1_apply (c : Dev nD) (t : Fin cfg0.N) (r : Fin 1024) (dd : Fin 512) :
    iblk0 V c 1 t (ix2 r dd) = V c main_arg2 (ix2 (rowN (t.val % 8) r) (colN (t.val / 8) dd)) := by
  obtain ⟨-, -, e0, e1, -⟩ := idx_facts t
  have hN : cfg0.N = 64 := N_0
  refine congrArg (V c main_arg2) (?_ : ((cfg0.win 1).blk t).view.emb (ix2 r dd) = _)
  funext a; apply Fin.ext
  match a with
  | ⟨0, _⟩ =>
    show win0_1.index t (0 : Fin 2) * 1024 + 1 * r.val = (1024 * (t.val % 8) + r.val) % 8192
    omega
  | ⟨1, _⟩ =>
    show win0_1.index t (1 : Fin 2) * 512 + 1 * dd.val = (512 * (t.val / 8) + dd.val) % 4096
    omega

theorem mblk_apply (c : Dev nD) (t : Fin cfg0.N) (r : Fin 1024) (j : Fin 2) :
    iblk0 V c 2 t (ix2 r j) = V c main_v8 (ix2 (rowN (t.val % 8) r) j) := by
  obtain ⟨-, -, -, -, e0, e1, -⟩ := idx_facts t
  refine congrArg (V c main_v8) (?_ : ((cfg0.win 2).blk t).view.emb (ix2 r j) = _)
  funext a; apply Fin.ext
  match a with
  | ⟨0, _⟩ =>
    show win0_2.index t (0 : Fin 2) * 1024 + 1 * r.val = (1024 * (t.val % 8) + r.val) % 8192
    omega
  | ⟨1, _⟩ =>
    show win0_2.index t (1 : Fin 2) * 2 + 1 * j.val = j.val
    omega

-- So a point's block sums are its batch block's contributions to its feature block.
theorem blockSum_blk0 (c : Dev nD) (t : Fin cfg0.N) :
    blockSum (iblk0 V c 0 t) (iblk0 V c 2 t) = part (V c main_arg1) (V c main_v8) (t.val / 8) (t.val % 8) :=
  funext fun y => Finset.sum_congr rfl fun r _ => congrArg₂ (· * ·) (xblk0_apply V c t r (y 1)) (mblk_apply V c t r (y 0))

theorem blockSum_blk1 (c : Dev nD) (t : Fin cfg0.N) :
    blockSum (iblk0 V c 1 t) (iblk0 V c 2 t) = part (V c main_arg2) (V c main_v8) (t.val / 8) (t.val % 8) :=
  funext fun y => Finset.sum_congr rfl fun r _ => congrArg₂ (· * ·) (xblk1_apply V c t r (y 1)) (mblk_apply V c t r (y 0))

-- The two accumulators after a point, from the two before it.
abbrev accStep (c : Dev nD) (t : Fin cfg0.N) (xs0 xs1 : S2x512.Idx → EReal) : (S2x512.Idx → EReal) × (S2x512.Idx → EReal) :=
  (fun y => xs0 y + part (V c main_arg1) (V c main_v8) (t.val / 8) (t.val % 8) y,
    fun y => xs1 y + part (V c main_arg2) (V c main_v8) (t.val / 8) (t.val % 8) y)

abbrev accPrev (c : Dev nD) (t : Fin cfg0.N) := (outsAt0 V c (t.val - 1) (Nat.lt_of_le_of_lt (Nat.sub_le _ _) t.isLt)).2.2

theorem scr_A (c : Dev nD) (t : Fin cfg0.N) (h0 : t.val % 8 = 0) :
    (outsAt0 V c t.val t.isLt).2.2 = accStep V c t (fun _ => 0) (fun _ => 0) := by
  rw [outsAt0_A V c t h0 (by omega), pt_A, blockSum_blk0, blockSum_blk1]

theorem scr_BC (c : Dev nD) (t : Fin cfg0.N) (h0 : ¬t.val % 8 = 0) :
    (outsAt0 V c t.val t.isLt).2.2 = accStep V c t (accPrev V c t).1 (accPrev V c t).2 := by
  by_cases h1 : t.val % 8 = 7
  · rw [outsAt0_C V c t h0 h1, pt_C, blockSum_blk0, blockSum_blk1]
  · rw [outsAt0_B V c t h0 h1, pt_B, blockSum_blk0, blockSum_blk1]

-- At the last batch block of a feature block each output block holds its accumulator as the point leaves it.
theorem out_flush (c : Dev nD) (t : Fin cfg0.N) (h1 : t.val % 8 = 7) :
    (outsAt0 V c t.val t.isLt).1 = (outsAt0 V c t.val t.isLt).2.2.1
      ∧ (outsAt0 V c t.val t.isLt).2.1 = (outsAt0 V c t.val t.isLt).2.2.2 := by
  rw [outsAt0_C V c t (by omega) h1, pt_C]
  exact ⟨rfl, rfl⟩

-- Restarting from 0 where n % 8 = 0 and adding to the point before elsewhere, the contents after point n are the contributions of batch blocks 0 .. n % 8 of feature block n / 8.
theorem acc_closed {N : ℕ} (S : (n : ℕ) → n < N → S2x512.Idx → EReal) (P : ℕ → ℕ → S2x512.Idx → EReal)
    (hA : ∀ (n : ℕ) (hn : n < N), n % 8 = 0 → S n hn = fun y => 0 + P (n / 8) (n % 8) y)
    (hB : ∀ (n : ℕ) (hn : n + 1 < N), ¬(n + 1) % 8 = 0 →
      S (n + 1) hn = fun y => S n (Nat.lt_of_succ_lt hn) y + P ((n + 1) / 8) ((n + 1) % 8) y) :
    ∀ (n : ℕ) (hn : n < N), S n hn = fun y => ∑ s ∈ Finset.range (n % 8 + 1), P (n / 8) s y
  | 0, hn => by
    rw [hA 0 hn rfl]
    funext y
    exact (zero_add _).trans (Finset.sum_range_one fun s => P (0 / 8) s y).symm
  | n + 1, hn => by
    by_cases h0 : (n + 1) % 8 = 0
    · rw [hA (n + 1) hn h0, h0]
      funext y
      exact (zero_add _).trans (Finset.sum_range_one fun s => P ((n + 1) / 8) s y).symm
    · rw [hB n hn h0, acc_closed S P hA hB n (Nat.lt_of_succ_lt hn), show (n + 1) / 8 = n / 8 by omega,
        show (n + 1) % 8 = n % 8 + 1 by omega]
      funext y
      exact (Finset.sum_range_succ _ _).symm

theorem scr0_closed (c : Dev nD) (n : ℕ) (hn : n < cfg0.N) :
    (outsAt0 V c n hn).2.2.1 = fun y => ∑ s ∈ Finset.range (n % 8 + 1), part (V c main_arg1) (V c main_v8) (n / 8) s y :=
  acc_closed (fun n hn => (outsAt0 V c n hn).2.2.1) _ (fun n hn h0 => congrArg Prod.fst (scr_A V c ⟨n, hn⟩ h0))
    (fun n hn h0 => congrArg Prod.fst (scr_BC V c ⟨n + 1, hn⟩ h0)) n hn

theorem scr1_closed (c : Dev nD) (n : ℕ) (hn : n < cfg0.N) :
    (outsAt0 V c n hn).2.2.2 = fun y => ∑ s ∈ Finset.range (n % 8 + 1), part (V c main_arg2) (V c main_v8) (n / 8) s y :=
  acc_closed (fun n hn => (outsAt0 V c n hn).2.2.2) _ (fun n hn h0 => congrArg Prod.snd (scr_A V c ⟨n, hn⟩ h0))
    (fun n hn h0 => congrArg Prod.snd (scr_BC V c ⟨n + 1, hn⟩ h0)) n hn

-- The eight batch blocks' contributions to feature block q add up to the weighted column sums over all 8192 rows.
theorem sum_parts (X : Cert.Spec.SBD.Idx → EReal) (M : Cert.Spec.SB2.Idx → EReal) (q : ℕ) (j : Fin 2) (dd : Fin 512) :
    ∑ s ∈ Finset.range 8, part X M q s (ix2 j dd) = Cert.Spec.colsumM X M j (colN q dd) :=
  (sum_rows fun b => X (ix2 b (colN q dd)) * M (ix2 b j)).symm

-- So entry (j, dd) of the accumulator at a feature block's last batch block is the array's entry at any index i with row j and column 512 q + dd.
theorem flushed_core (X : Cert.Spec.SBD.Idx → EReal) (M : Cert.Spec.SB2.Idx → EReal) (q : ℕ) (j : Fin 2) (dd : Fin 512)
    (i : Cert.Spec.S2D.Idx) (h0 : (i 0).val = j.val) (h1 : (i 1).val = (512 * q + dd.val) % 4096) :
    ∑ s ∈ Finset.range 8, part X M q s (ix2 j dd) = Cert.Spec.colsumArr X M i :=
  (sum_parts X M q j dd).trans (congrArg₂ (Cert.Spec.colsumM X M) (Fin.ext h0.symm) (Fin.ext h1.symm))

-- At a feature block's last batch block the output block holds all eight contributions: block (0, q) of the weighted column sums over all rows.
theorem flushed3_eq (c : Dev nD) (t : Fin cfg0.N) (hf : (cfg0.win 3).flush t = true) :
    (dat0 V c).flushed 3 t
      = ((cfg0.win 3).blk t).view.read (Elt Ideal) (Cert.Spec.colsumArr (V c main_arg1) (V c main_v8)) := by
  have h7 : t.val % 8 = 7 := (flush0_3 t).mp hf
  have hN : cfg0.N = 64 := N_0
  obtain ⟨-, -, -, -, -, -, e6, e7, -⟩ := idx_facts t
  show (cfg0.win 3).cut (grid0.coords t) ((dat0 V c).after 3 t) = _
  rw [after0_3, (out_flush V c t h7).1, scr0_closed V c t.val t.isLt, h7]
  funext y
  have hy0 : (y 0).val < 2 := (y 0).isLt
  have hy1 : (y 1).val < 512 := (y 1).isLt
  exact flushed_core _ _ _ ⟨(y 0).val, hy0⟩ ⟨(y 1).val, hy1⟩ (((cfg0.win 3).blk t).view.emb y)
    (show win0_3.index t (0 : Fin 2) * 2 + 1 * (y 0).val = (y 0).val by omega)
    (show win0_3.index t (1 : Fin 2) * 512 + 1 * (y 1).val = (512 * (t.val / 8) + (y 1).val) % 4096 by omega)

-- Column d of the 2 x 4096 array lies in the output block of the last batch block of feature block d / 512.
theorem cover3 (i : Cert.Spec.S2D.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 4096 := (i 1).isLt
  obtain ⟨t, ht⟩ : ∃ t : Fin cfg0.N, t.val = 8 * ((i 1).val / 512) + 7 := ⟨⟨_, by omega⟩, rfl⟩
  obtain ⟨-, -, -, -, -, -, e6, e7, -⟩ := idx_facts t
  refine ⟨t, (flush0_3 t).mpr (by omega), ?_⟩
  show i ∈ ((View.whole main_v17_0).slice (win0_3.rect t)).set
  rw [View.set_slice_whole, Rect.mem_set_unit]
  intro a
  match a with
  | ⟨0, _⟩ =>
    show win0_3.index t (0 : Fin 2) * 2 ≤ (i 0).val ∧ (i 0).val < win0_3.index t (0 : Fin 2) * 2 + 2
    omega
  | ⟨1, _⟩ =>
    show win0_3.index t (1 : Fin 2) * 512 ≤ (i 1).val ∧ (i 1).val < win0_3.index t (1 : Fin 2) * 512 + 512
    omega

theorem final0_3 (c : Dev nD) :
    (Cert.KernelIdeal.Frame.dat0 (F := Ideal) V c).arrAt 3 cfg0.N = Cert.Spec.colsumArr (V c main_arg1) (V c main_v8) :=
  (dat0 V c).arrAt_eq_of_cover 3 (Cert.Spec.colsumArr (V c main_arg1) (V c main_v8)) (fun t hf => flushed3_eq V c t hf) cover3

theorem flushed4_eq (c : Dev nD) (t : Fin cfg0.N) (hf : (cfg0.win 4).flush t = true) :
    (dat0 V c).flushed 4 t
      = ((cfg0.win 4).blk t).view.read (Elt Ideal) (Cert.Spec.colsumArr (V c main_arg2) (V c main_v8)) := by
  have h7 : t.val % 8 = 7 := (flush0_4 t).mp hf
  have hN : cfg0.N = 64 := N_0
  obtain ⟨-, -, -, -, -, -, -, -, e6, e7⟩ := idx_facts t
  show (cfg0.win 4).cut (grid0.coords t) ((dat0 V c).after 4 t) = _
  rw [after0_4, (out_flush V c t h7).2, scr1_closed V c t.val t.isLt, h7]
  funext y
  have hy0 : (y 0).val < 2 := (y 0).isLt
  have hy1 : (y 1).val < 512 := (y 1).isLt
  exact flushed_core _ _ _ ⟨(y 0).val, hy0⟩ ⟨(y 1).val, hy1⟩ (((cfg0.win 4).blk t).view.emb y)
    (show win0_4.index t (0 : Fin 2) * 2 + 1 * (y 0).val = (y 0).val by omega)
    (show win0_4.index t (1 : Fin 2) * 512 + 1 * (y 1).val = (512 * (t.val / 8) + (y 1).val) % 4096 by omega)

theorem cover4 (i : Cert.Spec.S2D.Idx) :
    ∃ t : Fin cfg0.N, (cfg0.win 4).flush t = true ∧ i ∈ ((cfg0.win 4).blk t).view.set := by
  have hN : cfg0.N = 64 := N_0
  have h0 : (i 0).val < 2 := (i 0).isLt
  have h1 : (i 1).val < 4096 := (i 1).isLt
  obtain ⟨t, ht⟩ : ∃ t : Fin cfg0.N, t.val = 8 * ((i 1).val / 512) + 7 := ⟨⟨_, by omega⟩, rfl⟩
  obtain ⟨-, -, -, -, -, -, -, -, e6, e7⟩ := idx_facts t
  refine ⟨t, (flush0_4 t).mpr (by omega), ?_⟩
  show i ∈ ((View.whole main_v17_1).slice (win0_4.rect t)).set
  rw [View.set_slice_whole, Rect.mem_set_unit]
  intro a
  match a with
  | ⟨0, _⟩ =>
    show win0_4.index t (0 : Fin 2) * 2 ≤ (i 0).val ∧ (i 0).val < win0_4.index t (0 : Fin 2) * 2 + 2
    omega
  | ⟨1, _⟩ =>
    show win0_4.index t (1 : Fin 2) * 512 ≤ (i 1).val ∧ (i 1).val < win0_4.index t (1 : Fin 2) * 512 + 512
    omega

theorem final0_4 (c : Dev nD) :
    (Cert.KernelIdeal.Frame.dat0 (F := Ideal) V c).arrAt 4 cfg0.N = Cert.Spec.colsumArr (V c main_arg2) (V c main_v8) :=
  (dat0 V c).arrAt_eq_of_cover 4 (Cert.Spec.colsumArr (V c main_arg2) (V c main_v8)) (fun t hf => flushed4_eq V c t hf) cover4

end Cert.KernelIdeal.Value0

end
-- ==== Proof.KI.R1Pay.lean ====
import proofs.«156448_j71244917506189_1_alg».proof.Proof.Gen.KernelIdeal.Skeleton
import proofs.«156448_j71244917506189_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Value1

open Gen Idealize.ShloMosaic
open ValueIdx

theorem bcastCol_apply (x : S128x1.Idx → EReal) (h : S128x1.Broadcasts S128x4096) (r : Fin 128) (d : Fin 4096) :
    broadcastTo S128x4096 x h (ix2 r d) = x (ix2 r 0) :=
  broadcastTo_apply x h (ix2 r d) (ix2 r 0) fun ax =>
    match ax with
    | ⟨0, _⟩ => rfl
    | ⟨1, _⟩ => rfl

theorem rowSum_apply (v : FVec Ideal S128x4096 .f32) (r : Fin 128) :
    multiReduction .add [1] S128 v 0x00000000#32 reduces_S128x4096_S128 (.inl rfl) rfl (ix1 r) = ∑ d : Fin 4096, v (ix2 r d) :=
  (Ideal.multiReduction_add_single v _ _ _ _ (ix1 r)).trans (Finset.sum_congr rfl fun d _ => congrArg v (Shape.idx_ext₂ rfl rfl))

theorem colSum_apply (v : FVec Ideal S128x1 .f32) :
    multiReduction .add [0] S1 v 0x00000000#32 reduces_S128x1_S1 (.inl rfl) rfl (ix1 0) = ∑ r : Fin 128, v (ix2 r 0) :=
  (Ideal.multiReduction_add_single v _ _ _ _ (ix1 0)).trans (Finset.sum_congr rfl fun r _ => congrArg v (Shape.idx_ext₂ rfl rfl))

variable (v3 v5 : FVec Ideal S128x1 .f32) (v7 v9 v11 v13 : FVec Ideal S1x4096 .f32) (v29 : FVec Ideal S128x4096 .f32)

-- The blend of two rows of statistics by a row's two weights, at (r, d).
theorem pay7_apply (r : Fin 128) (d : Fin 4096) :
    k1_pay7 (F := Ideal) v3 v5 v11 v13 (ix2 r d)
      = v3 (ix2 r 0) * v11 (ix2 0 d) + v5 (ix2 r 0) * v13 (ix2 0 d) := by
  unfold k1_pay7 k1_pay5 k1_pay6
  simp only [shapeCast_self]
  show broadcastTo S128x4096 v3 _ (ix2 r d) * broadcastTo S128x4096 v11 _ (ix2 r d)
      + broadcastTo S128x4096 v5 _ (ix2 r d) * broadcastTo S128x4096 v13 _ (ix2 r d) = _
  rw [bcastCol_apply, bcastCol_apply, broadcastTo_1b_ab_apply, broadcastTo_1b_ab_apply]

-- A row's sum over the columns is the density term at the two blends: the mean's blend is the same expression as the log-deviation's.
theorem rowTerm_apply (r : Fin 128) :
    k1_pay1 (F := Ideal) (k1_pay8 (F := Ideal) v3 v5 v11 v13) (k1_pay9 (F := Ideal) v3 v5 v7 v9 v29) (k1_pay10 (F := Ideal) v3 v5 v11 v13) (ix2 r 0)
      = ∑ d : Fin 4096, Spec.term' (v29 (ix2 r d))
          (v3 (ix2 r 0) * v7 (ix2 0 d) + v5 (ix2 r 0) * v9 (ix2 0 d))
          (v3 (ix2 r 0) * v11 (ix2 0 d) + v5 (ix2 r 0) * v13 (ix2 0 d)) := by
  refine (shapeCast_apply _ _ _ (ix1 r) (by rw [Shape.rowMajor_val_two, Shape.rowMajor_val_one]; show r.val = r.val * 1 + 0; omega)).trans
    ((rowSum_apply _ r).trans (Finset.sum_congr rfl fun d _ => ?_))
  show Spec.term' (v29 (ix2 r d)) (k1_pay7 (F := Ideal) v3 v5 v7 v9 (ix2 r d)) (k1_pay7 (F := Ideal) v3 v5 v11 v13 (ix2 r d)) = _
  rw [pay7_apply, pay7_apply]

-- What the body stores at an entry: the entry found there plus, over the rows, the row's density times its weight `w`.
theorem pay_value (w : FVec Ideal S128x1 .f32) (e : FVec Ideal S1x1 .f32) :
    k1_pay2 (F := Ideal) (k1_pay5 (F := Ideal) w) (k1_pay8 (F := Ideal) v3 v5 v11 v13) (k1_pay9 (F := Ideal) v3 v5 v7 v9 v29)
        (k1_pay10 (F := Ideal) v3 v5 v11 v13) e (ix2 0 0)
      = e (ix2 0 0) + ∑ r : Fin 128, (∑ d : Fin 4096, Spec.term' (v29 (ix2 r d))
          (v3 (ix2 r 0) * v7 (ix2 0 d) + v5 (ix2 r 0) * v9 (ix2 0 d))
          (v3 (ix2 r 0) * v11 (ix2 0 d) + v5 (ix2 r 0) * v13 (ix2 0 d)))
            * w (ix2 r 0) :=
  congrArg₂ (· + ·) (congrFun (shapeCast_self e _) _)
    ((shapeCast_a_1a_apply _ _ 0 0).trans ((colSum_apply _).trans
      (Finset.sum_congr rfl fun r _ => congrArg₂ (· * ·) (rowTerm_apply v3 v5 v7 v9 v11 v13 v29 r) (congrFun (shapeCast_self w _) _))))

end Cert.KernelIdeal.Value1

end
-- ==== Proof.KI.R1Pieces.lean ====
import proofs.«156448_j71244917506189_1_alg».proof.Proof.KI.R1Frame
import proofs.«156448_j71244917506189_1_alg».proof.Proof.KI.R1Pay

noncomputable section

open scoped BigOperators

namespace Cert.KernelIdeal.Value1

open Gen Frame Idealize.ShloMosaic Idealize.SL.Sem
open TcCoe Tactic ValueIdx

theorem hz2 : (![0, 0] : Fin 2 → Nat) = fun _ => 0 := funext fun a => by fin_cases a <;> rfl

section Body
variable (x0 : Vec Ideal S128x4096 .f32) (x1 : Vec Ideal S128x2 .f32) (x2 x3 : Vec Ideal S2x4096 .f32)

def ldCol0 : Vec Ideal S128x1 .f32 := View.ld x1 (Rect.unit (s := S128x2) ![0, 0] S128x1.size inb_S128x2_S128x1_0_0)
def ldCol1 : Vec Ideal S128x1 .f32 := View.ld x1 (Rect.unit (s := S128x2) ![0, 1] S128x1.size inb_S128x2_S128x1_0_1)
def ldRow0 : Vec Ideal S1x4096 .f32 := View.ld x2 (Rect.unit (s := S2x4096) ![0, 0] S1x4096.size inb_S2x4096_S1x4096_0_0)
def ldRow1 : Vec Ideal S1x4096 .f32 := View.ld x2 (Rect.unit (s := S2x4096) ![1, 0] S1x4096.size inb_S2x4096_S1x4096_1_0)

theorem ldCol0_apply (r : Fin 128) : ldCol0 x1 (ix2 r 0) = x1 (ix2 r 0) :=
  congrArg x1 (Shape.idx_ext₂ (by show 0 + 1 * r.val = r.val; omega) rfl)
theorem ldCol1_apply (r : Fin 128) : ldCol1 x1 (ix2 r 0) = x1 (ix2 r 1) :=
  congrArg x1 (Shape.idx_ext₂ (by show 0 + 1 * r.val = r.val; omega) rfl)
theorem ldRow0_apply (d : Fin 4096) : ldRow0 x2 (ix2 0 d) = x2 (ix2 0 d) :=
  congrArg x2 (Shape.idx_ext₂ rfl (by show 0 + 1 * d.val = d.val; omega))
theorem ldRow1_apply (d : Fin 4096) : ldRow1 x2 (ix2 0 d) = x2 (ix2 1 d) :=
  congrArg x2 (Shape.idx_ext₂ rfl (by show 0 + 1 * d.val = d.val; omega))

-- The 1 × 1 block stored at an entry: the entry `e` found there plus the sum, over the block's rows, of the row's density times its weight `w`.
def add (w : Vec Ideal S128x1 .f32) (e : Vec Ideal S1x1 .f32) : Vec Ideal S1x1 .f32 :=
  k1_pay2 (k1_pay5 w) (k1_pay8 (ldCol0 x1) (ldCol1 x1) (ldRow0 x3) (ldRow1 x3))
    (k1_pay9 (ldCol0 x1) (ldCol1 x1) (ldRow0 x2) (ldRow1 x2) x0) (k1_pay10 (ldCol0 x1) (ldCol1 x1) (ldRow0 x3) (ldRow1 x3)) e

-- One point's contribution to entry (0, j): over its 128 rows, the row's density at the statistics blended by the row's two weights, times the row's weight in class j.
def contrib (j : Fin 2) : EReal :=
  ∑ r : Fin 128, (∑ d : Fin 4096, Spec.term' (x0 (ix2 r d))
      (x1 (ix2 r 0) * x2 (ix2 0 d) + x1 (ix2 r 1) * x2 (ix2 1 d))
      (x1 (ix2 r 0) * x3 (ix2 0 d) + x1 (ix2 r 1) * x3 (ix2 1 d)))
    * x1 (ix2 r j)

theorem add_apply (w : Vec Ideal S128x1 .f32) (e : Vec Ideal S1x1 .f32) (j : Fin 2) (hw : ∀ r, w (ix2 r 0) = x1 (ix2 r j)) :
    add x0 x1 x2 x3 w e (ix2 0 0) = e (ix2 0 0) + contrib x0 x1 x2 x3 j := by
  refine (pay_value ..).trans ?_
  unfold contrib
  simp only [ldCol0_apply, ldCol1_apply, ldRow0_apply, ldRow1_apply, hw]

abbrev R00 : Rect S1x2 := Rect.unit (s := S1x2) ![0, 0] S1x1.size inb_S1x2_S1x1_0_0
abbrev R01 : Rect S1x2 := Rect.unit (s := S1x2) ![0, 1] S1x1.size inb_S1x2_S1x1_0_1
abbrev RW : Rect S1x2 := Rect.unit (s := S1x2) ![0, 0] S1x2.size inb_S1x2_S1x2_0_0

theorem R00_emb : R00.emb (ix2 0 0) = ix2 0 0 := Shape.idx_ext₂ rfl rfl
theorem R01_emb : R01.emb (ix2 0 0) = ix2 0 1 := Shape.idx_ext₂ rfl rfl

theorem not_mem_R00 : ix2 0 1 ∉ R00.set := fun h => absurd (Rect.mem_set_unit.mp h 1).2 (by decide)
theorem not_mem_R01 : ix2 0 0 ∉ R01.set := fun h => absurd (Rect.mem_set_unit.mp h 1).1 (by decide)

-- Entry (0, 1) stored after entry (0, 0), over earlier stores `L` that leave `s`: each entry holds what `s` held there plus the point's contribution.
theorem two_stores (s : Vec Ideal S1x2 .f32) (L : List (View.Piece (Elt Ideal) S1x2 .f32)) (e1 : Vec Ideal S1x1 .f32)
    (h1 : e1 (ix2 0 0) = s (ix2 0 1)) (j : Fin 2) :
    View.canon (⟨R01, add x0 x1 x2 x3 (ldCol1 x1) e1⟩ :: ⟨R00, add x0 x1 x2 x3 (ldCol0 x1) (View.ld s R00)⟩ :: L) (ix2 0 j)
      = s (ix2 0 j) + contrib x0 x1 x2 x3 j := by
  obtain rfl | rfl : j = 0 ∨ j = 1 := by omega
  · rw [View.canon_cons_of_not_mem _ _ not_mem_R01]
    exact (R00_emb ▸ View.canon_cons_emb R00 _ L (ix2 0 0)).trans
      ((add_apply x0 x1 x2 x3 _ _ 0 (ldCol0_apply x1)).trans (congrArg (s · + _) R00_emb))
  · exact (R01_emb ▸ View.canon_cons_emb R01 _ _ (ix2 0 0)).trans
      ((add_apply x0 x1 x2 x3 _ _ 1 (ldCol1_apply x1)).trans (congrArg (· + _) h1))

variable (V : (c : Dev nD) → (b : Ref sig .tc) → Buf (Elt Ideal) ((c : Thread nD τ).loc b)) (c : Dev nD) (t : Fin cfg1.N) (j : Fin 2)

-- Point t's contribution to entry (0, j), from its four blocks.
def cAt : EReal := contrib (iblk1 V c 0 t) (iblk1 V c 1 t) (iblk1 V c 2 t) (iblk1 V c 3 t) j

-- A later point adds its contribution to what the point before left in each entry.
theorem outs_B (h0 : ¬t.val % 64 = 0) :
    (outsAt1 V c t.val t.isLt : Vec Ideal S1x2 .f32) (ix2 0 j)
      = outsAt1 V c (t.val - 1) (Nat.lt_of_le_of_lt (Nat.sub_le _ _) t.isLt) (ix2 0 j) + cAt V c t j := by
  refine Eq.trans (congrFun ((outsAt1_B V c t h0).trans ?_) _) (two_stores _ _ _ _ _ [] (View.ld _ R01) (congrArg _ R01_emb) j)
  unfold out1_B_4
  rw [View.read_writes_eq_canon _ _ _ fun y => cover1_B_4 (y := y) ..]
  unfold kernelRun1_B
  dsimp only
  sl_unfold_words
  simp only [View.readAt_eq_ld, (hs1_0 t).read_unread, (hs1_1 t).read_unread, (hs1_2 t).read_unread, (hs1_3 t).read_unread, (hs1_4 t).read_unread, View.ld_unit_zero (S := S128x4096) hz2]
  rfl

-- The first point starts from the zero block: each entry ends at zero plus its contribution.
theorem outs_A (h0 : t.val % 64 = 0) : (outsAt1 V c t.val t.isLt : Vec Ideal S1x2 .f32) (ix2 0 j) = 0 + cAt V c t j := by
  refine Eq.trans (congrFun ((outsAt1_A V c t h0).trans ?_) _) ((two_stores _ _ _ _ (k1_pay4 (F := Ideal)) [⟨RW, k1_pay4 (F := Ideal)⟩]
    (View.ld (View.canon [(⟨R00, add (iblk1 V c 0 t) (iblk1 V c 1 t) (iblk1 V c 2 t) (iblk1 V c 3 t) (ldCol0 (iblk1 V c 1 t)) (View.ld (k1_pay4 (F := Ideal)) R00)⟩ : View.Piece (Elt Ideal) S1x2 .f32), ⟨RW, k1_pay4 (F := Ideal)⟩]) R01)
    ((congrArg _ R01_emb).trans ((View.canon_cons_of_not_mem _ _ not_mem_R00).trans (congrFun (View.canon_unit_zero hz2 _ _) _))) j).trans
      (congrArg (· + _) Ideal.ofBits_zero_f32))
  unfold out1_A_4
  rw [View.read_writes_eq_canon _ _ _ fun y => cover1_A_4 (y := y) ..]
  unfold kernelRun1_A
  dsimp only
  sl_unfold_words
  simp only [View.readAt_eq_ld, (hs1_0 t).read_unread, (hs1_1 t).read_unread, (hs1_2 t).read_unread, (hs1_3 t).read_unread, (hs1_4 t).read_unread, View.ld_unit_zero (S := S128x4096) hz2, View.readCov_eq_canon', View.canon_unit_zero (S := S1x2) hz2]
  rfl

end Body

end Cert.KernelIdeal.Value1

end
-- ==== Proof.KI.R1Value.lean ====
import proofs.«156448_j71244917506189_1_alg».proof.Proof.KI.R1Pieces

noncomputable section

open scoped BigOperators

namespace Cert.KernelIdeal.Value1

open Gen Frame Idealize.ShloMosaic
open TcCoe ValueIdx

variable (V : (c : Dev nD) → (b : Ref sig .tc) → Buf (Elt Ideal) ((c : Thread nD τ).loc b)) (c : Dev nD)

theorem N64 : cfg1.N = 64 := N_1

-- Row r of point t's block is row 128 t + r of the array.
def row (t : Fin cfg1.N) (r : Fin 128) : Fin 8192 :=
  ⟨128 * t.val + r.val, by have := t.isLt; have := N64; have := r.isLt; omega⟩

theorem idx_facts : ∀ t : Fin grid1.N,
    win1_0.index t 0 = t.val ∧ win1_0.index t 1 = 0 ∧ win1_1.index t 0 = t.val ∧ win1_1.index t 1 = 0
      ∧ win1_2.index t 0 = 0 ∧ win1_2.index t 1 = 0 ∧ win1_3.index t 0 = 0 ∧ win1_3.index t 1 = 0 := by
  decide +kernel

section Blocks
variable (t : Fin cfg1.N) (r : Fin 128) (j : Fin 2) (d : Fin 4096)

theorem zBlk_apply : (iblk1 V c 0 t : Vec Ideal S128x4096 .f32) (ix2 r d) = V c main_arg0 (ix2 (row t r) d) := by
  have := idx_facts t
  exact congrArg (V c main_arg0) (Shape.idx_ext₂ (by show win1_0.index t 0 * 128 + 1 * r.val = 128 * t.val + r.val; omega)
    (by show win1_0.index t 1 * 4096 + 1 * d.val = d.val; omega))

theorem mBlk_apply : (iblk1 V c 1 t : Vec Ideal S128x2 .f32) (ix2 r j) = V c main_v8 (ix2 (row t r) j) := by
  have := idx_facts t
  exact congrArg (V c main_v8) (Shape.idx_ext₂ (by show win1_1.index t 0 * 128 + 1 * r.val = 128 * t.val + r.val; omega)
    (by show win1_1.index t 1 * 2 + 1 * j.val = j.val; omega))

theorem muBlk_apply : (iblk1 V c 2 t : Vec Ideal S2x4096 .f32) (ix2 j d) = V c main_v23 (ix2 j d) := by
  have := idx_facts t
  exact congrArg (V c main_v23) (Shape.idx_ext₂ (by show win1_2.index t 0 * 2 + 1 * j.val = j.val; omega)
    (by show win1_2.index t 1 * 4096 + 1 * d.val = d.val; omega))

theorem lsBlk_apply : (iblk1 V c 3 t : Vec Ideal S2x4096 .f32) (ix2 j d) = V c main_v25 (ix2 j d) := by
  have := idx_facts t
  exact congrArg (V c main_v25) (Shape.idx_ext₂ (by show win1_3.index t 0 * 2 + 1 * j.val = j.val; omega)
    (by show win1_3.index t 1 * 4096 + 1 * d.val = d.val; omega))

-- Point t's contribution to entry (0, j), over the arrays' rows 128 t … 128 t + 127.
theorem cAt_rows :
    cAt V c t j = ∑ r : Fin 128, Spec.rowBlend (V c main_arg0) (V c main_v8) (V c main_v23) (V c main_v25) (row t r) * V c main_v8 (ix2 (row t r) j) := by
  unfold cAt contrib Spec.rowBlend
  simp only [zBlk_apply, mBlk_apply, muBlk_apply, lsBlk_apply]

end Blocks

-- 64 blocks of 128 rows are the 8192 rows.
theorem sum_rows (x : Fin 8192 → EReal) :
    ∑ n : Fin 8192, x n = ∑ t : Fin 64, ∑ r : Fin 128, x ⟨128 * t.val + r.val, by have := t.isLt; have := r.isLt; omega⟩ := by
  rw [← Equiv.sum_comp (finProdFinEquiv.trans (finCongr (by norm_num : 64 * 128 = 8192))) x, Fintype.sum_prod_type]
  exact Finset.sum_congr rfl fun t _ => Finset.sum_congr rfl fun r _ => congrArg x (Fin.ext (Nat.add_comm _ _))

variable (j : Fin 2)

-- Point n's contribution to entry (0, j) (zero past the grid).
def bAt (n : ℕ) : EReal := if h : n < cfg1.N then cAt V c ⟨n, h⟩ j else 0

-- After point n the entry is the sum of the contributions of points 0 … n.
theorem outs_entry : ∀ (n : ℕ) (h : n < cfg1.N),
    (outsAt1 V c n h : Vec Ideal S1x2 .f32) (ix2 0 j) = ∑ s ∈ Finset.range (n + 1), bAt V c j s
  | 0, h => by
    rw [Finset.sum_range_one, bAt, dif_pos h]
    exact (outs_A V c ⟨0, h⟩ j rfl).trans (zero_add _)
  | n + 1, h => by
    rw [Finset.sum_range_succ, ← outs_entry n (Nat.lt_of_succ_lt h), bAt, dif_pos h]
    exact outs_B V c ⟨n + 1, h⟩ j (by have := N64; show ¬(n + 1) % 64 = 0; omega)

abbrev tLast : Fin cfg1.N := ⟨63, by have := N64; omega⟩

-- After the last point entry (0, j) is the sum over all 8192 rows.
theorem outs_last : outsAt1 V c 63 tLast.isLt
    = fun i : S1x2.Idx => Spec.lpsumBlend (V c main_arg0) (V c main_v8) (V c main_v23) (V c main_v25) (i 1) := by
  funext i
  obtain ⟨a, j, rfl⟩ : ∃ (a : Fin 1) (j : Fin 2), i = ix2 a j := ⟨i 0, i 1, eq_ix2 i⟩
  obtain rfl : a = 0 := Subsingleton.elim _ _
  rw [outs_entry, Finset.sum_range]
  unfold Spec.lpsumBlend
  rw [sum_rows]
  refine Finset.sum_congr rfl fun t _ => ?_
  rw [bAt, dif_pos (by have := t.isLt; have := N64; omega), cAt_rows]
  rfl

theorem out_facts : ∀ (t : Fin grid1.N) (a : Fin 2), win1_4.index t a = 0 ∧ win1_4.xsize (grid1.coords t) a = S1x2.size a := by
  decide +kernel

theorem flushed_eq (t : Fin cfg1.N) (hf : (cfg1.win 4).flush t = true) :
    (dat1 V c).flushed 4 t = ((cfg1.win 4).blk t).view.read (Elt Ideal)
      (fun i : S1x2.Idx => Spec.lpsumBlend (V c main_arg0) (V c main_v8) (V c main_v23) (V c main_v25) (i 1)) := by
  obtain rfl : t = tLast := Fin.ext (show t.val = 63 by have := (flush1_4 t).mp hf; have := t.isLt; have := N64; omega)
  show (cfg1.win 4).cut (grid1.coords tLast) ((dat1 V c).after 4 tLast) = _
  rw [after1_4, outs_last]
  have hz' : (fun a => win1_4.index tLast a * main_v26.ty.shape.size a) = fun _ => 0 :=
    funext fun a => by rw [(out_facts tLast a).1, Nat.zero_mul]
  exact (Memref.read_access_unit_zero (Elt Ideal) main_v26 hz' (fun a => by rw [congrFun hz' a]; simp) _).symm

theorem final1_4 :
    (dat1 (F := Ideal) V c).arrAt 4 cfg1.N
      = (fun i : S1x2.Idx => Spec.lpsumBlend (V c main_arg0) (V c main_v8) (V c main_v23) (V c main_v25) (i 1)) :=
  (dat1 V c).arrAt_eq_of_cover 4 _ (flushed_eq V c) fun i =>
    ⟨tLast, (flush1_4 tLast).mpr rfl, by
      show i ∈ ((View.whole main_v26).slice (win1_4.rect tLast)).set
      rw [View.set_slice_whole, Rect.mem_set_unit]
      intro a
      show win1_4.index tLast a * win1_4.size a ≤ (i a : Nat) ∧ (i a : Nat) < win1_4.index tLast a * win1_4.size a + win1_4.xsize (grid1.coords tLast) a
      rw [(out_facts tLast a).1, (out_facts tLast a).2, Nat.zero_mul, Nat.zero_add]
      exact ⟨Nat.zero_le _, (i a).isLt⟩⟩

end Cert.KernelIdeal.Value1

end
-- ==== Proof.KI.Results.lean ====
import proofs.«156448_j71244917506189_1_alg».proof.Proof.KI.Main
import proofs.«156448_j71244917506189_1_alg».proof.Proof.KI.HostVal
import proofs.«156448_j71244917506189_1_alg».proof.Proof.KI.R0Value
import proofs.«156448_j71244917506189_1_alg».proof.Proof.KI.R1Value
import proofs.«156448_j71244917506189_1_alg».proof.Proof.Spec

noncomputable section

namespace Cert.KernelIdeal.Results

open Cert.KernelIdeal Cert.KernelIdeal.Gen Cert.KernelIdeal.Frame
open Idealize.ShloMosaic Idealize.ShloMosaic.TcCoe Idealize.SL.Sem
open Cert.KernelIdeal.Value0 Cert.KernelIdeal.Value1 Cert.Spec

variable (m : (ℓ : Loc nD τ sig) → Buf (Elt Ideal) ℓ) (c : Dev nD)

set_option quotPrecheck false in
local notation "aZ" => m ((c : Thread nD τ).loc main_arg0)
set_option quotPrecheck false in
local notation "aMn" => m ((c : Thread nD τ).loc main_arg1)
set_option quotPrecheck false in
local notation "aLs" => m ((c : Thread nD τ).loc main_arg2)
set_option quotPrecheck false in
local notation "aTg" => m ((c : Thread nD τ).loc main_arg3)
set_option quotPrecheck false in
local notation "aLd" => m ((c : Thread nD τ).loc main_arg4)

-- A buffer that is no array of either region and no result of the second host stretch is carried from the first region's entry to the last stretch.
theorem W4_W1 (r : Ref sig .tc) (h0 : ∀ w, Pipeline.arrRef spec0 w ≠ r) (h1 : r ∉ hostOps1_W)
    (h2 : ∀ w, Pipeline.arrRef spec1 w ≠ r) : W4 m c (Proc.devRef .tc r) = W1 m c (Proc.devRef .tc r) :=
  (W4_of_ne m c r h2).trans ((W3_keep m c r h1).trans (W2_of_ne m c r h0))

theorem W1_v8 : W1 m c (Proc.devRef .tc main_v8) = wtArr aTg := HostVal.host0_v8 (W0 m c)
theorem W1_v9 : W1 m c (Proc.devRef .tc main_v9) = fun _ => cntM (wtArr aTg) 0 := HostVal.host0_v9 (W0 m c)
theorem W1_v10 : W1 m c (Proc.devRef .tc main_v10) = fun _ => cntM (wtArr aTg) 1 := HostVal.host0_v10 (W0 m c)

theorem W2_v9 : W2 m c (Proc.devRef .tc main_v9) = fun _ => cntM (wtArr aTg) 0 := (W2_of_ne m c main_v9 (by decide)).trans (W1_v9 m c)
theorem W2_v10 : W2 m c (Proc.devRef .tc main_v10) = fun _ => cntM (wtArr aTg) 1 := (W2_of_ne m c main_v10 (by decide)).trans (W1_v10 m c)

-- The first region's two outputs are the weighted column sums of its two matrix inputs.
theorem W2_v17_0 : W2 m c (Proc.devRef .tc main_v17_0) = colsumArr aMn (wtArr aTg) :=
  (W2_arr m c 3).trans ((final0_3 (Frame.V1 m) c).trans (congrArg₂ colsumArr (W1_keep m c main_arg1 (by decide)) (W1_v8 m c)))
theorem W2_v17_1 : W2 m c (Proc.devRef .tc main_v17_1) = colsumArr aLs (wtArr aTg) :=
  (W2_arr m c 4).trans ((final0_4 (Frame.V1 m) c).trans (congrArg₂ colsumArr (W1_keep m c main_arg2 (by decide)) (W1_v8 m c)))

theorem W3_arg0 : Frame.V3 m c main_arg0 = aZ :=
  (W3_keep m c main_arg0 (by decide)).trans ((W2_of_ne m c main_arg0 (by decide)).trans (W1_keep m c main_arg0 (by decide)))
theorem W3_v8 : Frame.V3 m c main_v8 = wtArr aTg :=
  (W3_keep m c main_v8 (by decide)).trans ((W2_in m c 2 rfl).trans (W1_v8 m c))
theorem W3_v23 : Frame.V3 m c main_v23 = resMu aMn aTg :=
  HostVal.host1_v23 (W2 m c) aMn (wtArr aTg) (W2_v17_0 m c) (W2_v9 m c) (W2_v10 m c)
theorem W3_v25 : Frame.V3 m c main_v25 = resLs aLs aTg :=
  HostVal.host1_v25 (W2 m c) aLs (wtArr aTg) (W2_v17_1 m c) (W2_v9 m c) (W2_v10 m c)

theorem W4_v9 : W4 m c (Proc.devRef .tc main_v9) = fun _ => cntM (wtArr aTg) 0 :=
  (W4_W1 m c main_v9 (by decide) (by decide) (by decide)).trans (W1_v9 m c)
theorem W4_v10 : W4 m c (Proc.devRef .tc main_v10) = fun _ => cntM (wtArr aTg) 1 :=
  (W4_W1 m c main_v10 (by decide) (by decide) (by decide)).trans (W1_v10 m c)
theorem W4_v13 : W4 m c (Proc.devRef .tc main_v13) = fun _ => resLd aTg aLd 0 :=
  (W4_W1 m c main_v13 (by decide) (by decide) (by decide)).trans (HostVal.host0_v13 (W0 m c))
theorem W4_v16 : W4 m c (Proc.devRef .tc main_v16) = fun _ => resLd aTg aLd 1 :=
  (W4_W1 m c main_v16 (by decide) (by decide) (by decide)).trans (HostVal.host0_v16 (W0 m c))

-- The second region's output: a row carries at most one label, so the blended density sum is the class's own.
theorem W4_v26 : W4 m c (Proc.devRef .tc main_v26)
    = fun i : S1x2.Idx => lpsumClass aZ (wtArr aTg) (resMu aMn aTg) (resLs aLs aTg) (i 1) := by
  refine (W4_arr m c 4).trans ((final1_4 (Frame.V3 m) c).trans ?_)
  rw [W3_arg0 m c, W3_v8 m c, W3_v23 m c, W3_v25 m c]
  funext i
  exact lpsumBlend_eq _ _ _ _ _

theorem res_mu : W5 m c (Proc.devRef .tc main_v23) = resMu aMn aTg :=
  (W5_keep m c main_v23 (by decide)).trans ((W4_in m c 2 rfl).trans (W3_v23 m c))
theorem res_ls : W5 m c (Proc.devRef .tc main_v25) = resLs aLs aTg :=
  (W5_keep m c main_v25 (by decide)).trans ((W4_in m c 3 rfl).trans (W3_v25 m c))
theorem res_lp : W5 m c (Proc.devRef .tc main_v35) = fun i => resLp aZ aMn aLs aTg (i 0) :=
  HostVal.host2_v35 (W4 m c) (lpsumClass aZ (wtArr aTg) (resMu aMn aTg) (resLs aLs aTg))
    (wtArr aTg) (W4_v26 m c) (W4_v9 m c) (W4_v10 m c)
theorem res_total : W5 m c (Proc.devRef .tc main_v41) = fun _ => resTotal aZ aMn aLs aTg aLd :=
  HostVal.host2_v41 (W4 m c) (lpsumClass aZ (wtArr aTg) (resMu aMn aTg) (resLs aLs aTg))
    (wtArr aTg) (resLd aTg aLd 0) (resLd aTg aLd 1) (W4_v26 m c) (W4_v9 m c) (W4_v10 m c) (W4_v13 m c) (W4_v16 m c)

theorem kernel_run (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v41) = (fun _ => Cert.Spec.resTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v23) = Cert.Spec.resMu (m ((c.tc : Thread nD τ).loc main_arg1)) (m ((c.tc : Thread nD τ).loc main_arg3))
      ∧ r.2.mem ((c.tc : Thread nD τ).loc main_v25) = Cert.Spec.resLs (m ((c.tc : Thread nD τ).loc main_arg2)) (m ((c.tc : Thread nD τ).loc main_arg3))
      ∧ r.2.mem ((c.tc : Thread nD τ).loc main_v35) = (fun i => Cert.Spec.resLp (m ((c.tc : Thread nD τ).loc main_arg0)) (m ((c.tc : Thread nD τ).loc main_arg1)) (m ((c.tc : Thread nD τ).loc main_arg2)) (m ((c.tc : Thread nD τ).loc main_arg3)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v41 (by decide))).trans (res_total m c),
     (h c _ (mem_uc main_v23 (by decide))).trans (res_mu m c),
     (h c _ (mem_uc main_v25 (by decide))).trans (res_ls m c),
     (h c _ (mem_uc main_v35 (by decide))).trans (res_lp m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Results

end
-- ==== Proof.RefSpec.lean ====
import proofs.«156448_j71244917506189_1_alg».proof.Proof.RefReadP
import proofs.«156448_j71244917506189_1_alg».proof.Proof.Spec
import Idealize.ShloMosaic.Lib.ValueIdxRank1

noncomputable section

open scoped BigOperators

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP Cert.Spec

variable (x0 x1 x2 : (⟨S8192x4096, .f32⟩ : BufTy).Contents (Elt Ideal)) (x3 : (⟨S8192, .i32⟩ : BufTy).Contents (Elt Ideal))
  (x4 : (⟨S8192, .f32⟩ : BufTy).Contents (Elt Ideal)) (s : S_.Idx) (r : S8192.Idx) (k : S4096.Idx) (b : Fin 8192) (d : Fin 4096)

theorem zadd (a : EReal) : Ideal.ofBits .f32 0#32 + a = a := by rw [Ideal.ofBits_zero_f32, zero_add]

/-- A sum started from the zero word, re-indexed from rank-1 indices to their coordinate. -/
theorem zsum {n : Nat} (f : (⟨1, ![n]⟩ : Shape).Idx → EReal) :
    Ideal.ofBits .f32 0#32 + ∑ i, f i = ∑ a : Fin n, f (ix1 a) :=
  (zadd _).trans (Equiv.sum_comp idxEquiv1.symm f).symm

/-- The weight of a row in class 0 is the 0/1 indicator of its label; the later stages of class 0 follow index by index. -/
theorem w0 : val_main_v2 x3 r = wtArr x3 (ix2 (r 0) 0) := by
  rw [val_main_v2_apply, val_main_v1_apply, val_main_v0_apply, val_main_c_apply, eq_ix1 r]; rfl

theorem cnt0 : val_main_v3 x3 s = cntM (wtArr x3) 0 :=
  (val_main_v3_apply x3 s).trans ((zsum _).trans (Finset.sum_congr rfl fun b _ => w0 x3 _))

theorem ld0 : val_main_v6 x3 x4 s = resLd x3 x4 0 := by
  rw [val_main_v6_apply, val_main_v5_apply, cnt0]
  exact congrArg (Ideal.div · _) ((zsum _).trans (Finset.sum_congr rfl fun b _ => congrArg (x4 _ * ·) (w0 x3 _)))

theorem colsumMu0 : val_main_v10 x1 x3 k = colsumM x1 (wtArr x3) 0 (k 0) := by
  rw [val_main_v10_apply]
  refine (zadd _).trans (Finset.sum_congr rfl fun b _ => ?_)
  rw [val_main_v9_apply, val_main_v8_apply, val_main_v7_apply, w0, (eq_ix2 _ : idx_main_v10 k b = ix2 b (k 0))]; rfl

theorem colsumLs0 : val_main_v16 x2 x3 k = colsumM x2 (wtArr x3) 0 (k 0) := by
  rw [val_main_v16_apply]
  refine (zadd _).trans (Finset.sum_congr rfl fun b _ => ?_)
  rw [val_main_v15_apply, val_main_v14_apply, val_main_v13_apply, w0, (eq_ix2 _ : idx_main_v16 k b = ix2 b (k 0))]; rfl

theorem mu0 : val_main_v12 x1 x3 k = resMu x1 x3 (ix2 0 (k 0)) := by
  rw [val_main_v12_apply, val_main_v11_apply, cnt0, colsumMu0]; rfl

theorem ls0 : val_main_v18 x2 x3 k = resLs x2 x3 (ix2 0 (k 0)) := by
  rw [val_main_v18_apply, val_main_v17_apply, cnt0, colsumLs0]; rfl

theorem term0 : val_main_v35 x0 x1 x2 x3 (ix2 b d)
    = term (x0 (ix2 b d)) (resMu x1 x3 (ix2 0 d)) (resLs x2 x3 (ix2 0 d)) := by
  rw [val_main_v35_apply, val_main_v34_apply, val_main_v33_apply, val_main_v20_apply, val_main_v19_apply, val_main_v32_apply, val_main_v26_apply,
    val_main_v25_apply, val_main_v24_apply, val_main_v23_apply, val_main_v22_apply, val_main_v21_apply, val_main_v31_apply, val_main_v30_apply,
    val_main_v29_apply, val_main_v28_apply, val_main_v27_apply, mu0, ls0, Ideal.hostUnary_exp_def]
  rfl

theorem row0 : val_main_v36 x0 x1 x2 x3 r = rowClass x0 (resMu x1 x3) (resLs x2 x3) 0 (r 0) := by
  rw [val_main_v36_apply]
  exact (zadd _).trans (Finset.sum_congr rfl fun d _ => (congrArg _ (eq_ix2 _)).trans (term0 x0 x1 x2 x3 (r 0) d))

theorem lpsum0 : val_main_v38 x0 x1 x2 x3 s = lpsumClass x0 (wtArr x3) (resMu x1 x3) (resLs x2 x3) 0 :=
  (val_main_v38_apply x0 x1 x2 x3 s).trans ((zsum _).trans (Finset.sum_congr rfl fun b _ =>
    congrArg₂ (· * ·) (row0 x0 x1 x2 x3 _) (w0 x3 _)))

theorem lp0 : val_main_v39 x0 x1 x2 x3 s = resLp x0 x1 x2 x3 0 := by
  rw [val_main_v39_apply, lpsum0, cnt0]; rfl

/-- Class 1: the same stages with the label 1. -/
theorem w1 : val_main_v42 x3 r = wtArr x3 (ix2 (r 0) 1) := by
  rw [val_main_v42_apply, val_main_v41_apply, val_main_v40_apply, val_main_c_8_apply, eq_ix1 r]; rfl

theorem cnt1 : val_main_v43 x3 s = cntM (wtArr x3) 1 :=
  (val_main_v43_apply x3 s).trans ((zsum _).trans (Finset.sum_congr rfl fun b _ => w1 x3 _))

theorem ld1 : val_main_v46 x3 x4 s = resLd x3 x4 1 := by
  rw [val_main_v46_apply, val_main_v45_apply, cnt1]
  exact congrArg (Ideal.div · _) ((zsum _).trans (Finset.sum_congr rfl fun b _ => congrArg (x4 _ * ·) (w1 x3 _)))

theorem colsumMu1 : val_main_v50 x1 x3 k = colsumM x1 (wtArr x3) 1 (k 0) := by
  rw [val_main_v50_apply]
  refine (zadd _).trans (Finset.sum_congr rfl fun b _ => ?_)
  rw [val_main_v49_apply, val_main_v48_apply, val_main_v47_apply, w1, (eq_ix2 _ : idx_main_v50 k b = ix2 b (k 0))]; rfl

theorem colsumLs1 : val_main_v56 x2 x3 k = colsumM x2 (wtArr x3) 1 (k 0) := by
  rw [val_main_v56_apply]
  refine (zadd _).trans (Finset.sum_congr rfl fun b _ => ?_)
  rw [val_main_v55_apply, val_main_v54_apply, val_main_v53_apply, w1, (eq_ix2 _ : idx_main_v56 k b = ix2 b (k 0))]; rfl

theorem mu1 : val_main_v52 x1 x3 k = resMu x1 x3 (ix2 1 (k 0)) := by
  rw [val_main_v52_apply, val_main_v51_apply, cnt1, colsumMu1]; rfl

theorem ls1 : val_main_v58 x2 x3 k = resLs x2 x3 (ix2 1 (k 0)) := by
  rw [val_main_v58_apply, val_main_v57_apply, cnt1, colsumLs1]; rfl

theorem term1 : val_main_v75 x0 x1 x2 x3 (ix2 b d)
    = term (x0 (ix2 b d)) (resMu x1 x3 (ix2 1 d)) (resLs x2 x3 (ix2 1 d)) := by
  rw [val_main_v75_apply, val_main_v74_apply, val_main_v73_apply, val_main_v60_apply, val_main_v59_apply, val_main_v72_apply, val_main_v66_apply,
    val_main_v65_apply, val_main_v64_apply, val_main_v63_apply, val_main_v62_apply, val_main_v61_apply, val_main_v71_apply, val_main_v70_apply,
    val_main_v69_apply, val_main_v68_apply, val_main_v67_apply, mu1, ls1, Ideal.hostUnary_exp_def]
  rfl

theorem row1 : val_main_v76 x0 x1 x2 x3 r = rowClass x0 (resMu x1 x3) (resLs x2 x3) 1 (r 0) := by
  rw [val_main_v76_apply]
  exact (zadd _).trans (Finset.sum_congr rfl fun d _ => (congrArg _ (eq_ix2 _)).trans (term1 x0 x1 x2 x3 (r 0) d))

theorem lpsum1 : val_main_v78 x0 x1 x2 x3 s = lpsumClass x0 (wtArr x3) (resMu x1 x3) (resLs x2 x3) 1 :=
  (val_main_v78_apply x0 x1 x2 x3 s).trans ((zsum _).trans (Finset.sum_congr rfl fun b _ =>
    congrArg₂ (· * ·) (row1 x0 x1 x2 x3 _) (w1 x3 _)))

theorem lp1 : val_main_v79 x0 x1 x2 x3 s = resLp x0 x1 x2 x3 1 := by
  rw [val_main_v79_apply, lpsum1, cnt1]; rfl

/-- Two one-row blocks joined along the rows: row 0 is the first block, row 1 the second. -/
theorem concat_rows {p q : S1x4096.Idx → EReal} {R : S2x4096.Idx → EReal} (hp : ∀ d, p (ix2 0 d) = R (ix2 0 d))
    (hq : ∀ d, q (ix2 0 d) = R (ix2 1 d)) :
    concatenate S2x4096 0 [⟨S1x4096, p⟩, ⟨S1x4096, q⟩] concatenates_S1x4096_S1x4096_S2x4096_d0 = R := by
  funext i
  obtain ⟨j, d, rfl⟩ : ∃ (j : Fin 2) (d : Fin 4096), i = ix2 j d := ⟨_, _, eq_ix2 i⟩
  match j with
  | ⟨0, _⟩ => exact (concatenate_pair_apply_left _ p q concatenates_S1x4096_S1x4096_S2x4096_d0 _ rfl (ix2 0 d)
      fun b => match b with | ⟨0, _⟩ => rfl | ⟨1, _⟩ => rfl).trans (hp d)
  | ⟨1, _⟩ => exact (concatenate_pair_apply_right _ p q concatenates_S1x4096_S1x4096_S2x4096_d0 _ rfl rfl (ix2 0 d)
      (fun b hb => match b, hb with | ⟨0, _⟩, hb => (hb rfl).elim | ⟨1, _⟩, _ => rfl) rfl).trans (hq d)

/-- Two one-element vectors joined: entry 0 is the first, entry 1 the second. -/
theorem concat_pair {p q : S1.Idx → EReal} {R : S2.Idx → EReal} (hp : p (ix1 0) = R (ix1 0)) (hq : q (ix1 0) = R (ix1 1)) :
    concatenate S2 0 [⟨S1, p⟩, ⟨S1, q⟩] concatenates_S1_S1_S2_d0 = R := by
  funext i
  obtain ⟨j, rfl⟩ : ∃ j : Fin 2, i = ix1 j := ⟨_, eq_ix1 i⟩
  match j with
  | ⟨0, _⟩ => exact (concatenate_pair_apply_left _ p q concatenates_S1_S1_S2_d0 _ rfl (ix1 0)
      fun b => match b with | ⟨0, _⟩ => rfl).trans hp
  | ⟨1, _⟩ => exact (concatenate_pair_apply_right _ p q concatenates_S1_S1_S2_d0 _ rfl rfl (ix1 0)
      (fun b hb => match b, hb with | ⟨0, _⟩, hb => (hb rfl).elim) rfl).trans hq

theorem ref_mu : val_main_v85 x1 x3 = resMu x1 x3 :=
  concat_rows (fun d => by rw [val_main_v83_apply, mu0]; rfl) (fun d => by rw [val_main_v84_apply, mu1]; rfl)

theorem ref_ls : val_main_v88 x2 x3 = resLs x2 x3 :=
  concat_rows (fun d => by rw [val_main_v86_apply, ls0]; rfl) (fun d => by rw [val_main_v87_apply, ls1]; rfl)

theorem ref_lp : val_main_v91 x0 x1 x2 x3 = fun i => resLp x0 x1 x2 x3 (i 0) :=
  concat_pair ((val_main_v89_apply _ _ _ _ _).trans (lp0 _ _ _ _ _)) ((val_main_v90_apply _ _ _ _ _).trans (lp1 _ _ _ _ _))

theorem ref_ld : val_main_v82 x3 x4 = fun i => resLd x3 x4 (i 0) :=
  concat_pair ((val_main_v80_apply _ _ _).trans (ld0 _ _ _)) ((val_main_v81_apply _ _ _).trans (ld1 _ _ _))

theorem ref_total : val_main_v94 x0 x1 x2 x3 x4 = fun _ => resTotal x0 x1 x2 x3 x4 := by
  funext i
  rw [val_main_v94_apply, val_main_v93_apply, val_main_cst_18_apply, Ideal.ofBits_def, zsum, Fin.sum_univ_two,
    val_main_v92_apply, val_main_v92_apply, ref_lp, ref_ld]
  rfl

/-- Every run of the reference ends with the specification's four results of its arguments, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v94) = (fun _ => Cert.Spec.resTotal (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)))
      ∧ r.2.mem ((c.tc : Thread nD τ).loc main_v85) = Cert.Spec.resMu (m' ((c.tc : Thread nD τ).loc main_arg1)) (m' ((c.tc : Thread nD τ).loc main_arg3))
      ∧ r.2.mem ((c.tc : Thread nD τ).loc main_v88) = Cert.Spec.resLs (m' ((c.tc : Thread nD τ).loc main_arg2)) (m' ((c.tc : Thread nD τ).loc main_arg3))
      ∧ r.2.mem ((c.tc : Thread nD τ).loc main_v91) = (fun i => Cert.Spec.resLp (m' ((c.tc : Thread nD τ).loc main_arg0)) (m' ((c.tc : Thread nD τ).loc main_arg1)) (m' ((c.tc : Thread nD τ).loc main_arg2)) (m' ((c.tc : Thread nD τ).loc main_arg3)) (i 0))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run _ _ _).mono (fun _ h c =>
      let ⟨h0, h1, h2, h3, ha⟩ := h c
      ⟨h0.trans ((val_main_v94_eq m' c).trans (ref_total _ _ _ _ _)), h1.trans ((val_main_v85_eq _ _).trans (ref_mu _ _)),
        h2.trans ((val_main_v88_eq _ _).trans (ref_ls _ _)), h3.trans ((val_main_v91_eq m' c).trans (ref_lp _ _ _ _)), ha⟩)
    (Cert.ReferenceIdeal.ValueP.run (F := Ideal) m' ρ')

end Cert.RefSpec

end
-- ==== Proof.lean ====
import proofs.«156448_j71244917506189_1_alg».proof.Defs
import proofs.«156448_j71244917506189_1_alg».proof.Proof.Gen.Kernel
import proofs.«156448_j71244917506189_1_alg».proof.Proof.Gen.KernelIdeal
import proofs.«156448_j71244917506189_1_alg».proof.Proof.Gen.ReferenceIdeal
import proofs.«156448_j71244917506189_1_alg».proof.Proof.Gen.Pre_finite_inputs
import proofs.«156448_j71244917506189_1_alg».proof.Proof.K.Main
import proofs.«156448_j71244917506189_1_alg».proof.Proof.KI.Main
import proofs.«156448_j71244917506189_1_alg».proof.Proof.KI.Results
import proofs.«156448_j71244917506189_1_alg».proof.Proof.RefSpec

noncomputable section

namespace Cert.Proof

open Idealize.ShloMosaic Idealize.SL.Sem

/-- Both runs end at the specification's four results, read at arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Results.kernel_run m ρ, ?_⟩
  refine (θ_run Cert.ReferenceIdeal.defs _ _).mono (fun _ h c => ?_) (Cert.RefSpec.ref_run m' ρ')
  obtain ⟨h0, h1, h2, h3, hargs⟩ := h c
  obtain ⟨a0, a1, a2, a3, a4⟩ := hagree c
  refine ⟨?_, ?_, ?_, ?_, hargs⟩
  · rw [h0, a0, a1, a2, a3, a4]; rfl
  · rw [h1, a1, a3]
  · rw [h2, a2, a3]
  · rw [h3, a0, a1, a2, a3]; rfl

theorem claim : Cert.Claim :=
  ⟨Cert.Kernel.Gen.facts, Cert.KernelIdeal.Gen.facts, Cert.ReferenceIdeal.Gen.facts, Cert.Pre_finite_inputs.Gen.facts,
    fun m ρ _ => Cert.Kernel.Frame.frame m ρ, fun m ρ _ => Cert.KernelIdeal.Frame.frame m ρ,
    fun m ρ _ => (θ_run Cert.ReferenceIdeal.defs _ _).mono (fun _ h c => (h c).2.2.2.2) (Cert.RefSpec.ref_run m ρ),
    trivial, algebraic⟩

end Cert.Proof

end
